-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S12x128x512 : Shape := ⟨3, ![12, 128, 512]⟩
abbrev S3 : Shape := ⟨1, ![3]⟩
abbrev S_ : Shape := ⟨0, ![]⟩
abbrev S128x512 : Shape := ⟨2, ![128, 512]⟩
abbrev S1x128x512 : Shape := ⟨3, ![1, 128, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S12x128x512, .bf16⟩
  | .local _ .vmem, ⟨3, _⟩ => ⟨S12x128x512, .bf16⟩
  | .local _ .vmem, ⟨4, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k0_off1 (d0 : Dev nD) (c0_i32_29 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi v8 c0_i32_29
  let c4_i32_30 : BitVec 32 := 4#32
  let c0_i32_31 : BitVec 32 := 0#32
  let v50 : BitVec 1 := Scalar.cmpi .eq c4_i32_30 c0_i32_31
  let c1_i32_32 : BitVec 32 := 1#32
  let v51 : BitVec 32 := Scalar.select v50 c1_i32_32 c4_i32_30
  let v52 : BitVec 32 := Scalar.remsi v49 v51
  let c0_i32_34 : BitVec 32 := 0#32
  let v54 : BitVec 1 := Scalar.cmpi .slt v52 c0_i32_34
  let c0_i32_35 : BitVec 32 := 0#32
  let v55 : BitVec 1 := Scalar.cmpi .slt v51 c0_i32_35
  let v56 : BitVec 1 := Scalar.xori v54 v55
  let c0_i32_33 : BitVec 32 := 0#32
  let v53 : BitVec 1 := Scalar.cmpi .ne v52 c0_i32_33
  let v57 : BitVec 1 := Scalar.andi v56 v53
  let v58 : BitVec 32 := Scalar.addi v52 v51
  let v59 : BitVec 32 := Scalar.select v57 v58 v52
  let c128_i32 : BitVec 32 := 128#32
  let v71 : BitVec 32 := Scalar.muli v59 c128_i32
  let v72 : Index := Scalar.indexCast v71
  let c0_43 : Index := 0#32
  ![v72.toNat, 0]
def k0_off2 (d0 : Dev nD) (c0_i32_36 : BitVec 32) : Fin 2 → Nat :=
  let c512_i32 : BitVec 32 := 512#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v60 : BitVec 32 := Scalar.addi v8 c0_i32_36
  let c4_i32_37 : BitVec 32 := 4#32
  let c0_i32_38 : BitVec 32 := 0#32
  let v61 : BitVec 1 := Scalar.cmpi .eq c4_i32_37 c0_i32_38
  let c1_i32_39 : BitVec 32 := 1#32
  let v62 : BitVec 32 := Scalar.select v61 c1_i32_39 c4_i32_37
  let v63 : BitVec 32 := Scalar.remsi v60 v62
  let c0_i32_41 : BitVec 32 := 0#32
  let v65 : BitVec 1 := Scalar.cmpi .slt v63 c0_i32_41
  let c0_i32_42 : BitVec 32 := 0#32
  let v66 : BitVec 1 := Scalar.cmpi .slt v62 c0_i32_42
  let v67 : BitVec 1 := Scalar.xori v65 v66
  let c0_i32_40 : BitVec 32 := 0#32
  let v64 : BitVec 1 := Scalar.cmpi .ne v63 c0_i32_40
  let v68 : BitVec 1 := Scalar.andi v67 v64
  let v69 : BitVec 32 := Scalar.addi v63 v62
  let v70 : BitVec 32 := Scalar.select v68 v69 v63
  let c128_i32_47 : BitVec 32 := 128#32
  let v78 : BitVec 32 := Scalar.muli v70 c128_i32_47
  let v79 : BitVec 32 := Scalar.addi c512_i32 v78
  let v80 : Index := Scalar.indexCast v79
  let c0_48 : Index := 0#32
  ![v80.toNat, 0]
def k0_dev3 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v86 : BitVec 32 := Scalar.muli v2 c16_i32_56
  let v87 : BitVec 32 := Scalar.addi c0_i32_57 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v88 : BitVec 32 := Scalar.muli v5 c4_i32_58
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_59 : BitVec 32 := 1#32
  let v90 : BitVec 32 := Scalar.muli v30 c1_i32_59
  let v91 : BitVec 32 := Scalar.addi v89 v90
  v91.toNat
def k0_dev4 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v100 : BitVec 32 := Scalar.muli v2 c16_i32_68
  let v101 : BitVec 32 := Scalar.addi c0_i32_69 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v102 : BitVec 32 := Scalar.muli v5 c4_i32_70
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_71 : BitVec 32 := 1#32
  let v104 : BitVec 32 := Scalar.muli v19 c1_i32_71
  let v105 : BitVec 32 := Scalar.addi v103 v104
  v105.toNat
def k0_off3 (d0 : Dev nD) (c0_i32_118 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v150 : BitVec 32 := Scalar.subi v8 c0_i32_118
  let c1_i32_119 : BitVec 32 := 1#32
  let v151 : BitVec 32 := Scalar.subi v150 c1_i32_119
  let c4_i32_120 : BitVec 32 := 4#32
  let c0_i32_121 : BitVec 32 := 0#32
  let v152 : BitVec 1 := Scalar.cmpi .eq c4_i32_120 c0_i32_121
  let c1_i32_122 : BitVec 32 := 1#32
  let v153 : BitVec 32 := Scalar.select v152 c1_i32_122 c4_i32_120
  let v154 : BitVec 32 := Scalar.remsi v151 v153
  let c0_i32_124 : BitVec 32 := 0#32
  let v156 : BitVec 1 := Scalar.cmpi .slt v154 c0_i32_124
  let c0_i32_125 : BitVec 32 := 0#32
  let v157 : BitVec 1 := Scalar.cmpi .slt v153 c0_i32_125
  let v158 : BitVec 1 := Scalar.xori v156 v157
  let c0_i32_123 : BitVec 32 := 0#32
  let v155 : BitVec 1 := Scalar.cmpi .ne v154 c0_i32_123
  let v159 : BitVec 1 := Scalar.andi v158 v155
  let v160 : BitVec 32 := Scalar.addi v154 v153
  let v161 : BitVec 32 := Scalar.select v159 v160 v154
  let c128_i32_134 : BitVec 32 := 128#32
  let v174 : BitVec 32 := Scalar.muli v161 c128_i32_134
  let v175 : Index := Scalar.indexCast v174
  let c0_135 : Index := 0#32
  ![v175.toNat, 0]
def k0_off4 (d0 : Dev nD) (c0_i32_126 : BitVec 32) : Fin 2 → Nat :=
  let c512_i32_140 : BitVec 32 := 512#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v162 : BitVec 32 := Scalar.addi v8 c0_i32_126
  let c1_i32_127 : BitVec 32 := 1#32
  let v163 : BitVec 32 := Scalar.addi v162 c1_i32_127
  let c4_i32_128 : BitVec 32 := 4#32
  let c0_i32_129 : BitVec 32 := 0#32
  let v164 : BitVec 1 := Scalar.cmpi .eq c4_i32_128 c0_i32_129
  let c1_i32_130 : BitVec 32 := 1#32
  let v165 : BitVec 32 := Scalar.select v164 c1_i32_130 c4_i32_128
  let v166 : BitVec 32 := Scalar.remsi v163 v165
  let c0_i32_132 : BitVec 32 := 0#32
  let v168 : BitVec 1 := Scalar.cmpi .slt v166 c0_i32_132
  let c0_i32_133 : BitVec 32 := 0#32
  let v169 : BitVec 1 := Scalar.cmpi .slt v165 c0_i32_133
  let v170 : BitVec 1 := Scalar.xori v168 v169
  let c0_i32_131 : BitVec 32 := 0#32
  let v167 : BitVec 1 := Scalar.cmpi .ne v166 c0_i32_131
  let v171 : BitVec 1 := Scalar.andi v170 v167
  let v172 : BitVec 32 := Scalar.addi v166 v165
  let v173 : BitVec 32 := Scalar.select v171 v172 v166
  let c128_i32_139 : BitVec 32 := 128#32
  let v185 : BitVec 32 := Scalar.muli v173 c128_i32_139
  let v186 : BitVec 32 := Scalar.addi c512_i32_140 v185
  let v187 : Index := Scalar.indexCast v186
  let c0_141 : Index := 0#32
  ![v187.toNat, 0]
def k0_dev5 (d0 : Dev nD) : Nat :=
  let c0_i32_174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_173 : BitVec 32 := 16#32
  let v234 : BitVec 32 := Scalar.muli v2 c16_i32_173
  let v235 : BitVec 32 := Scalar.addi c0_i32_174 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_175 : BitVec 32 := 4#32
  let v236 : BitVec 32 := Scalar.muli v5 c4_i32_175
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_176 : BitVec 32 := 1#32
  let v238 : BitVec 32 := Scalar.muli v30 c1_i32_176
  let v239 : BitVec 32 := Scalar.addi v237 v238
  v239.toNat
def k0_dev6 (d0 : Dev nD) : Nat :=
  let c0_i32_186 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_185 : BitVec 32 := 16#32
  let v248 : BitVec 32 := Scalar.muli v2 c16_i32_185
  let v249 : BitVec 32 := Scalar.addi c0_i32_186 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_187 : BitVec 32 := 4#32
  let v250 : BitVec 32 := Scalar.muli v5 c4_i32_187
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_188 : BitVec 32 := 1#32
  let v252 : BitVec 32 := Scalar.muli v19 c1_i32_188
  let v253 : BitVec 32 := Scalar.addi v251 v252
  v253.toNat
def k0_dev7 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v382 : BitVec 32 := Scalar.muli v2 c16_i32_290
  let v383 : BitVec 32 := Scalar.addi c0_i32_291 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v384 : BitVec 32 := Scalar.muli v5 c4_i32_292
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_293 : BitVec 32 := 1#32
  let v386 : BitVec 32 := Scalar.muli v30 c1_i32_293
  let v387 : BitVec 32 := Scalar.addi v385 v386
  v387.toNat
def k0_dev8 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v396 : BitVec 32 := Scalar.muli v2 c16_i32_302
  let v397 : BitVec 32 := Scalar.addi c0_i32_303 v396
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v398 : BitVec 32 := Scalar.muli v5 c4_i32_304
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_305 : BitVec 32 := 1#32
  let v400 : BitVec 32 := Scalar.muli v19 c1_i32_305
  let v401 : BitVec 32 := Scalar.addi v399 v400
  v401.toNat
def k0_off5 (d0 : Dev nD) (c0_i32_385 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v495 : BitVec 32 := Scalar.addi v8 c1_i32_384
  let v496 : BitVec 32 := Scalar.subi v495 c0_i32_385
  let c4_i32_386 : BitVec 32 := 4#32
  let c0_i32_387 : BitVec 32 := 0#32
  let v497 : BitVec 1 := Scalar.cmpi .eq c4_i32_386 c0_i32_387
  let c1_i32_388 : BitVec 32 := 1#32
  let v498 : BitVec 32 := Scalar.select v497 c1_i32_388 c4_i32_386
  let v499 : BitVec 32 := Scalar.remsi v496 v498
  let c0_i32_390 : BitVec 32 := 0#32
  let v501 : BitVec 1 := Scalar.cmpi .slt v499 c0_i32_390
  let c0_i32_391 : BitVec 32 := 0#32
  let v502 : BitVec 1 := Scalar.cmpi .slt v498 c0_i32_391
  let v503 : BitVec 1 := Scalar.xori v501 v502
  let c0_i32_389 : BitVec 32 := 0#32
  let v500 : BitVec 1 := Scalar.cmpi .ne v499 c0_i32_389
  let v504 : BitVec 1 := Scalar.andi v503 v500
  let v505 : BitVec 32 := Scalar.addi v499 v498
  let v506 : BitVec 32 := Scalar.select v504 v505 v499
  let c128_i32_400 : BitVec 32 := 128#32
  let v519 : BitVec 32 := Scalar.muli v506 c128_i32_400
  let v520 : Index := Scalar.indexCast v519
  let c0_401 : Index := 0#32
  ![v520.toNat, 0]
def k0_off6 (d0 : Dev nD) (c0_i32_393 : BitVec 32) : Fin 2 → Nat :=
  let c512_i32_405 : BitVec 32 := 512#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v507 : BitVec 32 := Scalar.subi v8 c1_i32_392
  let v508 : BitVec 32 := Scalar.addi v507 c0_i32_393
  let c4_i32_394 : BitVec 32 := 4#32
  let c0_i32_395 : BitVec 32 := 0#32
  let v509 : BitVec 1 := Scalar.cmpi .eq c4_i32_394 c0_i32_395
  let c1_i32_396 : BitVec 32 := 1#32
  let v510 : BitVec 32 := Scalar.select v509 c1_i32_396 c4_i32_394
  let v511 : BitVec 32 := Scalar.remsi v508 v510
  let c0_i32_398 : BitVec 32 := 0#32
  let v513 : BitVec 1 := Scalar.cmpi .slt v511 c0_i32_398
  let c0_i32_399 : BitVec 32 := 0#32
  let v514 : BitVec 1 := Scalar.cmpi .slt v510 c0_i32_399
  let v515 : BitVec 1 := Scalar.xori v513 v514
  let c0_i32_397 : BitVec 32 := 0#32
  let v512 : BitVec 1 := Scalar.cmpi .ne v511 c0_i32_397
  let v516 : BitVec 1 := Scalar.andi v515 v512
  let v517 : BitVec 32 := Scalar.addi v511 v510
  let v518 : BitVec 32 := Scalar.select v516 v517 v511
  let c128_i32_404 : BitVec 32 := 128#32
  let v527 : BitVec 32 := Scalar.muli v518 c128_i32_404
  let v528 : BitVec 32 := Scalar.addi c512_i32_405 v527
  let v529 : Index := Scalar.indexCast v528
  let c0_406 : Index := 0#32
  ![v529.toNat, 0]
def k0_dev9 (d0 : Dev nD) : Nat :=
  let c0_i32_413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_412 : BitVec 32 := 16#32
  let v536 : BitVec 32 := Scalar.muli v2 c16_i32_412
  let v537 : BitVec 32 := Scalar.addi c0_i32_413 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_414 : BitVec 32 := 4#32
  let v538 : BitVec 32 := Scalar.muli v5 c4_i32_414
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_415 : BitVec 32 := 1#32
  let v540 : BitVec 32 := Scalar.muli v30 c1_i32_415
  let v541 : BitVec 32 := Scalar.addi v539 v540
  v541.toNat
def k0_dev10 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v550 : BitVec 32 := Scalar.muli v2 c16_i32_424
  let v551 : BitVec 32 := Scalar.addi c0_i32_425 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_426 : BitVec 32 := 4#32
  let v552 : BitVec 32 := Scalar.muli v5 c4_i32_426
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_427 : BitVec 32 := 1#32
  let v554 : BitVec 32 := Scalar.muli v19 c1_i32_427
  let v555 : BitVec 32 := Scalar.addi v553 v554
  v555.toNat
def k0_dev11 (d0 : Dev nD) : Nat :=
  let c0_i32_527 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_526 : BitVec 32 := 16#32
  let v676 : BitVec 32 := Scalar.muli v2 c16_i32_526
  let v677 : BitVec 32 := Scalar.addi c0_i32_527 v676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_528 : BitVec 32 := 4#32
  let v678 : BitVec 32 := Scalar.muli v5 c4_i32_528
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_529 : BitVec 32 := 1#32
  let v680 : BitVec 32 := Scalar.muli v30 c1_i32_529
  let v681 : BitVec 32 := Scalar.addi v679 v680
  v681.toNat
def k0_dev12 (d0 : Dev nD) : Nat :=
  let c0_i32_539 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_538 : BitVec 32 := 16#32
  let v690 : BitVec 32 := Scalar.muli v2 c16_i32_538
  let v691 : BitVec 32 := Scalar.addi c0_i32_539 v690
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_540 : BitVec 32 := 4#32
  let v692 : BitVec 32 := Scalar.muli v5 c4_i32_540
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_541 : BitVec 32 := 1#32
  let v694 : BitVec 32 := Scalar.muli v19 c1_i32_541
  let v695 : BitVec 32 := Scalar.addi v693 v694
  v695.toNat
def k0_dev13 (d0 : Dev nD) : Nat :=
  let c0_i32_641 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_640 : BitVec 32 := 16#32
  let v816 : BitVec 32 := Scalar.muli v2 c16_i32_640
  let v817 : BitVec 32 := Scalar.addi c0_i32_641 v816
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_642 : BitVec 32 := 4#32
  let v818 : BitVec 32 := Scalar.muli v5 c4_i32_642
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_643 : BitVec 32 := 1#32
  let v820 : BitVec 32 := Scalar.muli v30 c1_i32_643
  let v821 : BitVec 32 := Scalar.addi v819 v820
  v821.toNat
def k0_dev14 (d0 : Dev nD) : Nat :=
  let c0_i32_653 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_652 : BitVec 32 := 16#32
  let v830 : BitVec 32 := Scalar.muli v2 c16_i32_652
  let v831 : BitVec 32 := Scalar.addi c0_i32_653 v830
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_654 : BitVec 32 := 4#32
  let v832 : BitVec 32 := Scalar.muli v5 c4_i32_654
  let v833 : BitVec 32 := Scalar.addi v831 v832
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_655 : BitVec 32 := 1#32
  let v834 : BitVec 32 := Scalar.muli v19 c1_i32_655
  let v835 : BitVec 32 := Scalar.addi v833 v834
  v835.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S128x512 : 0 < S128x512.numel
  bitsLt_bf16_f32 : FTy.bits .bf16 < FTy.bits .f32
  inb_S12x128x512_S1x128x512_0_0_0 : ∀ a, (![0, 0, 0] : Fin 3 → Nat) a + S1x128x512.size a ≤ S12x128x512.size a
  h_S1x128x512 : 0 < S1x128x512.numel
  shapeCasts_S1x128x512_S128x512 : S1x128x512.ShapeCasts S128x512
  shapeCasts_S128x512_S1x128x512 : S128x512.ShapeCasts S1x128x512
  packedbf16_S12x128x512_S1x128x512_0_0_0 : (Rect.unit (s := S12x128x512) ![0, 0, 0] S1x128x512.size inb_S12x128x512_S1x128x512_0_0_0).PackedRows (EltTy.packing .bf16)
  inb_S3_S1_0 : ∀ a, (![0] : Fin 1 → Nat) a + S1.size a ≤ S3.size a
  squeezes_S1_S_ : S1.Squeezes S_
  inb_S12x128x512_S1x128x512_1_0_0 : ∀ a, (![1, 0, 0] : Fin 3 → Nat) a + S1x128x512.size a ≤ S12x128x512.size a
  squeezes_S1x128x512_S128x512 : S1x128x512.Squeezes S128x512
  wordsbf16_S12x128x512_S1x128x512_0_0_0 : (Rect.unit (s := S12x128x512) ![0, 0, 0] S1x128x512.size inb_S12x128x512_S1x128x512_0_0_0).WholeWords (EltTy.packing .bf16)
  wordsbf16_S12x128x512_S1x128x512_1_0_0 : (Rect.unit (s := S12x128x512) ![1, 0, 0] S1x128x512.size inb_S12x128x512_S1x128x512_1_0_0).WholeWords (EltTy.packing .bf16)
  shapeCasts_S128x512_S128x512 : S128x512.ShapeCasts S128x512
  inb_S12x128x512_S1x128x512_2_0_0 : ∀ a, (![2, 0, 0] : Fin 3 → Nat) a + S1x128x512.size a ≤ S12x128x512.size a
  packedbf16_S12x128x512_S1x128x512_2_0_0 : (Rect.unit (s := S12x128x512) ![2, 0, 0] S1x128x512.size inb_S12x128x512_S1x128x512_2_0_0).PackedRows (EltTy.packing .bf16)
  inb_S3_S1_1 : ∀ a, (![1] : Fin 1 → Nat) a + S1.size a ≤ S3.size a
  inb_S12x128x512_S1x128x512_3_0_0 : ∀ a, (![3, 0, 0] : Fin 3 → Nat) a + S1x128x512.size a ≤ S12x128x512.size a
  wordsbf16_S12x128x512_S1x128x512_2_0_0 : (Rect.unit (s := S12x128x512) ![2, 0, 0] S1x128x512.size inb_S12x128x512_S1x128x512_2_0_0).WholeWords (EltTy.packing .bf16)
  wordsbf16_S12x128x512_S1x128x512_3_0_0 : (Rect.unit (s := S12x128x512) ![3, 0, 0] S1x128x512.size inb_S12x128x512_S1x128x512_3_0_0).WholeWords (EltTy.packing .bf16)
  inb_S12x128x512_S1x128x512_4_0_0 : ∀ a, (![4, 0, 0] : Fin 3 → Nat) a + S1x128x512.size a ≤ S12x128x512.size a
  packedbf16_S12x128x512_S1x128x512_4_0_0 : (Rect.unit (s := S12x128x512) ![4, 0, 0] S1x128x512.size inb_S12x128x512_S1x128x512_4_0_0).PackedRows (EltTy.packing .bf16)
  inb_S3_S1_2 : ∀ a, (![2] : Fin 1 → Nat) a + S1.size a ≤ S3.size a
  inb_S12x128x512_S1x128x512_5_0_0 : ∀ a, (![5, 0, 0] : Fin 3 → Nat) a + S1x128x512.size a ≤ S12x128x512.size a
  wordsbf16_S12x128x512_S1x128x512_4_0_0 : (Rect.unit (s := S12x128x512) ![4, 0, 0] S1x128x512.size inb_S12x128x512_S1x128x512_4_0_0).WholeWords (EltTy.packing .bf16)
  wordsbf16_S12x128x512_S1x128x512_5_0_0 : (Rect.unit (s := S12x128x512) ![5, 0, 0] S1x128x512.size inb_S12x128x512_S1x128x512_5_0_0).WholeWords (EltTy.packing .bf16)
  inb_S12x128x512_S1x128x512_6_0_0 : ∀ a, (![6, 0, 0] : Fin 3 → Nat) a + S1x128x512.size a ≤ S12x128x512.size a
  packedbf16_S12x128x512_S1x128x512_6_0_0 : (Rect.unit (s := S12x128x512) ![6, 0, 0] S1x128x512.size inb_S12x128x512_S1x128x512_6_0_0).PackedRows (EltTy.packing .bf16)
  inb_S12x128x512_S1x128x512_7_0_0 : ∀ a, (![7, 0, 0] : Fin 3 → Nat) a + S1x128x512.size a ≤ S12x128x512.size a
  wordsbf16_S12x128x512_S1x128x512_6_0_0 : (Rect.unit (s := S12x128x512) ![6, 0, 0] S1x128x512.size inb_S12x128x512_S1x128x512_6_0_0).WholeWords (EltTy.packing .bf16)
  wordsbf16_S12x128x512_S1x128x512_7_0_0 : (Rect.unit (s := S12x128x512) ![7, 0, 0] S1x128x512.size inb_S12x128x512_S1x128x512_7_0_0).WholeWords (EltTy.packing .bf16)
  inb_S12x128x512_S1x128x512_8_0_0 : ∀ a, (![8, 0, 0] : Fin 3 → Nat) a + S1x128x512.size a ≤ S12x128x512.size a
  packedbf16_S12x128x512_S1x128x512_8_0_0 : (Rect.unit (s := S12x128x512) ![8, 0, 0] S1x128x512.size inb_S12x128x512_S1x128x512_8_0_0).PackedRows (EltTy.packing .bf16)
  inb_S12x128x512_S1x128x512_9_0_0 : ∀ a, (![9, 0, 0] : Fin 3 → Nat) a + S1x128x512.size a ≤ S12x128x512.size a
  wordsbf16_S12x128x512_S1x128x512_8_0_0 : (Rect.unit (s := S12x128x512) ![8, 0, 0] S1x128x512.size inb_S12x128x512_S1x128x512_8_0_0).WholeWords (EltTy.packing .bf16)
  wordsbf16_S12x128x512_S1x128x512_9_0_0 : (Rect.unit (s := S12x128x512) ![9, 0, 0] S1x128x512.size inb_S12x128x512_S1x128x512_9_0_0).WholeWords (EltTy.packing .bf16)
  inb_S12x128x512_S1x128x512_10_0_0 : ∀ a, (![10, 0, 0] : Fin 3 → Nat) a + S1x128x512.size a ≤ S12x128x512.size a
  packedbf16_S12x128x512_S1x128x512_10_0_0 : (Rect.unit (s := S12x128x512) ![10, 0, 0] S1x128x512.size inb_S12x128x512_S1x128x512_10_0_0).PackedRows (EltTy.packing .bf16)
  inb_S12x128x512_S1x128x512_11_0_0 : ∀ a, (![11, 0, 0] : Fin 3 → Nat) a + S1x128x512.size a ≤ S12x128x512.size a
  wordsbf16_S12x128x512_S1x128x512_10_0_0 : (Rect.unit (s := S12x128x512) ![10, 0, 0] S1x128x512.size inb_S12x128x512_S1x128x512_10_0_0).WholeWords (EltTy.packing .bf16)
  wordsbf16_S12x128x512_S1x128x512_11_0_0 : (Rect.unit (s := S12x128x512) ![11, 0, 0] S1x128x512.size inb_S12x128x512_S1x128x512_11_0_0).WholeWords (EltTy.packing .bf16)
  hcc0_scratch3 : 2 + S3.numel ≤ 14
  hcc0_scratch4 : 5 + S3.numel ≤ 14
  hcc0_scratch5 : 8 + S3.numel ≤ 14
  hcc0_scratch6 : 11 + S3.numel ≤ 14
  k0_dev1_lt : ∀ d0 : Dev nD, (k0_dev1 d0) < nD
  k0_dev2_lt : ∀ d0 : Dev nD, (k0_dev2 d0) < nD
  k0_off1_inb : ∀ d0 : Dev nD, ∀ (r : Fin 3), ∀ a, (k0_off1 d0 (BitVec.ofNat 32 r.val)) a + S128x512.size a ≤ S1024x512.size a
  k0_off2_inb : ∀ d0 : Dev nD, ∀ (r : Fin 3), ∀ a, (k0_off2 d0 (BitVec.ofNat 32 r.val)) a + S128x512.size a ≤ S1024x512.size a
  k0_dev3_lt : ∀ d0 : Dev nD, (k0_dev3 d0) < nD
  k0_dev4_lt : ∀ d0 : Dev nD, (k0_dev4 d0) < nD
  k0_off3_inb : ∀ d0 : Dev nD, ∀ (r : Fin 3), ∀ a, (k0_off3 d0 (BitVec.ofNat 32 r.val)) a + S128x512.size a ≤ S1024x512.size a
  k0_off4_inb : ∀ d0 : Dev nD, ∀ (r : Fin 3), ∀ a, (k0_off4 d0 (BitVec.ofNat 32 r.val)) a + S128x512.size a ≤ S1024x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off5_inb : ∀ d0 : Dev nD, ∀ (r : Fin 3), ∀ a, (k0_off5 d0 (BitVec.ofNat 32 r.val)) a + S128x512.size a ≤ S1024x512.size a
  k0_off6_inb : ∀ d0 : Dev nD, ∀ (r : Fin 3), ∀ a, (k0_off6 d0 (BitVec.ofNat 32 r.val)) a + S128x512.size a ≤ S1024x512.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch3 : DmaSems sig S3 := SemArray.consecutive 2 S3 hcc0_scratch3
abbrev cc0_scratch4 : DmaSems sig S3 := SemArray.consecutive 5 S3 hcc0_scratch4
abbrev cc0_scratch5 : DmaSems sig S3 := SemArray.consecutive 8 S3 hcc0_scratch5
abbrev cc0_scratch6 : DmaSems sig S3 := SemArray.consecutive 11 S3 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel

variable [Facts₀]

class Facts : Prop extends Facts₀ where

variable [Facts]
-- ==== Proof.Base.lean ====
/- The ring on the mesh axis z: a device's two neighbours, its semaphore cells, and the twelve 128 x 512 slots of each transfer buffer
   (even slot 2t is the source of step t, odd slot 2t + 1 the landing place of the neighbour's step t). -/
import proofs.«900731_g7700000000000732_dist_ar_v7x_xyz2x4x4_z_m1024_n512_bf16_1_alg».proof.Proof.Gen.KernelIdeal
import proofs.«900731_g7700000000000732_dist_ar_v7x_xyz2x4x4_z_m1024_n512_bf16_1_alg».proof.Proof.Gen.KernelIdeal.Skeleton
import proofs.«900731_g7700000000000732_dist_ar_v7x_xyz2x4x4_z_m1024_n512_bf16_1_alg».proof.Proof.Gen.KernelIdeal.Launch
import proofs.«900731_g7700000000000732_dist_ar_v7x_xyz2x4x4_z_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

def rgt (c : Dev nD) : Dev nD := ⟨c.val - c.val % 4 + (c.val % 4 + 1) % 4, by have h : c.val < 32 := c.isLt; show _ < 32; omega⟩
def lft (c : Dev nD) : Dev nD := ⟨c.val - c.val % 4 + (c.val % 4 + 3) % 4, by have h : c.val < 32 := c.isLt; show _ < 32; omega⟩

theorem lft_rgt (c : Dev nD) : lft (rgt c) = c := by revert c; decide
theorem rgt_lft (c : Dev nD) : rgt (lft c) = c := by revert c; decide

def ringR : Dev nD ≃ Dev nD := ⟨rgt, lft, lft_rgt, rgt_lft⟩

abbrev barS : Sem sig := (SemArray.scalar (sig.barrier 0 rfl) : Sems sig S_).sem

abbrev semRS : Fin 3 → DmaSem sig := fun | 0 => ⟨2, by decide⟩ | 1 => ⟨3, by decide⟩ | 2 => ⟨4, by decide⟩
abbrev semRR : Fin 3 → DmaSem sig := fun | 0 => ⟨5, by decide⟩ | 1 => ⟨6, by decide⟩ | 2 => ⟨7, by decide⟩
abbrev semLS : Fin 3 → DmaSem sig := fun | 0 => ⟨8, by decide⟩ | 1 => ⟨9, by decide⟩ | 2 => ⟨10, by decide⟩
abbrev semLR : Fin 3 → DmaSem sig := fun | 0 => ⟨11, by decide⟩ | 1 => ⟨12, by decide⟩ | 2 => ⟨13, by decide⟩

abbrev cBar (c : Dev nD) : GSem nD τ sig := ((c : Thread nD τ), .reg barS)
abbrev cRS (c : Dev nD) (j : Fin 3) : GSem nD τ sig := ((c : Thread nD τ), .dma (semRS j))
abbrev cRR (c : Dev nD) (j : Fin 3) : GSem nD τ sig := ((c : Thread nD τ), .dma (semRR j))
abbrev cLS (c : Dev nD) (j : Fin 3) : GSem nD τ sig := ((c : Thread nD τ), .dma (semLS j))
abbrev cLR (c : Dev nD) (j : Fin 3) : GSem nD τ sig := ((c : Thread nD τ), .dma (semLR j))

abbrev sj (t : ℕ) : Fin 3 := ⟨t % 3, Nat.mod_lt _ (by decide)⟩
abbrev rd (t : ℕ) : ℕ := t / 3

abbrev xM : Memref sig .tc .vmem S1024x512 .f32 := Memref.whole cc0_stg0_0
abbrev oM : Memref sig .tc .vmem S1024x512 .f32 := Memref.whole cc0_stg1_0
abbrev rM : Memref sig .tc .vmem S12x128x512 .bf16 := Memref.whole cc0_scratch0
abbrev lM : Memref sig .tc .vmem S12x128x512 .bf16 := Memref.whole cc0_scratch1
abbrev aM : Memref sig .tc .vmem S1024x512 .f32 := Memref.whole cc0_scratch2

theorem inbS (k : ℕ) (hk : k < 12) : ∀ a, (![k, 0, 0] : Fin 3 → Nat) a + S1x128x512.size a ≤ S12x128x512.size a := by
  intro a; fin_cases a
  · show k + 1 ≤ 12; omega
  · show 0 + 128 ≤ 128; omega
  · show 0 + 512 ≤ 512; omega

abbrev rectS (k : ℕ) (hk : k < 12) : Rect S12x128x512 := Rect.unit (s := S12x128x512) ![k, 0, 0] S1x128x512.size (inbS k hk)

abbrev slotOf (M : Memref sig .tc .vmem S12x128x512 .bf16) (k : ℕ) (hk : k < 12) : Memref sig .tc .vmem S128x512 .bf16 :=
  (M.slice (rectS k hk) (fun _ => rfl)).squeeze S128x512 squeezes_S1x128x512_S128x512

abbrev N : ℕ := (slotOf rM 1 (by decide)).view.dmaCredit

def slotPts (M : Memref sig .tc .vmem S12x128x512 .bf16) (c : Dev nD) (k : ℕ) (hk : k < 12)
    (f : Buf (Elt F) ((slotOf M k hk).view.loc (c : Thread nD τ))) : sProp 𝕄 :=
  (slotOf M k hk).view.loc (c : Thread nD τ) ↦[(slotOf M k hk).view.set]{fullShare} f

end Cert.KernelIdeal.AR

end
-- ==== Proof.Vals.lean ====
/- The accumulator and the result after each of the six steps, and the chunk each device sends at each step, as functions of the launch memory. -/
import proofs.«900731_g7700000000000732_dist_ar_v7x_xyz2x4x4_z_m1024_n512_bf16_1_alg».proof.Proof.Base

noncomputable section

namespace Cert.KernelIdeal.AR

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

abbrev R1 (c : Dev nD) (s : Fin 3) : Rect S1024x512 := Rect.unit (s := S1024x512) (k0_off1 c (BitVec.ofNat 32 s.val)) S128x512.size (k0_off1_inb c s)
abbrev R2 (c : Dev nD) (s : Fin 3) : Rect S1024x512 := Rect.unit (s := S1024x512) (k0_off2 c (BitVec.ofNat 32 s.val)) S128x512.size (k0_off2_inb c s)
abbrev R3 (c : Dev nD) (s : Fin 3) : Rect S1024x512 := Rect.unit (s := S1024x512) (k0_off3 c (BitVec.ofNat 32 s.val)) S128x512.size (k0_off3_inb c s)
abbrev R4 (c : Dev nD) (s : Fin 3) : Rect S1024x512 := Rect.unit (s := S1024x512) (k0_off4 c (BitVec.ofNat 32 s.val)) S128x512.size (k0_off4_inb c s)
abbrev R5 (c : Dev nD) (s : Fin 3) : Rect S1024x512 := Rect.unit (s := S1024x512) (k0_off5 c (BitVec.ofNat 32 s.val)) S128x512.size (k0_off5_inb c s)
abbrev R6 (c : Dev nD) (s : Fin 3) : Rect S1024x512 := Rect.unit (s := S1024x512) (k0_off6 c (BitVec.ofNat 32 s.val)) S128x512.size (k0_off6_inb c s)

abbrev CA : Type := (cc0_scratch2 : Ref sig .tc).ty.Contents (Elt F)
abbrev CO : Type := (cc0_stg1_0 : Ref sig .tc).ty.Contents (Elt F)

abbrev rdA (r : Rect S1024x512) (f : CA (F := F)) := aM.view.readAt (Elt F) r.toLoadRect f
abbrev rdO (r : Rect S1024x512) (f : CO (F := F)) := oM.view.readAt (Elt F) r.toLoadRect f
abbrev wrA (r : Rect S1024x512) (f : CA (F := F)) (w : r.shape.Idx → Elt F .f32) : CA (F := F) := (aM.access r).write (Elt F) f w Finset.univ
abbrev wrO (r : Rect S1024x512) (f : CO (F := F)) (w : r.shape.Idx → Elt F .f32) : CO (F := F) := (oM.access r).write (Elt F) f w Finset.univ

def xstg (c : Dev nD) : (cc0_stg0_0 : Ref sig .tc).ty.Contents (Elt F) :=
  (win0_0.blk (0 : Fin 1)).view.read (Elt F) (m ((c : Thread nD τ).loc main_arg0))

def A0 (c : Dev nD) : CA (F := F) := k0_pay3 (xstg m c)

def rs0 (c : Dev nD) := k0_pay4 (rdA (R1 c 0) (A0 m c))
def ls0 (c : Dev nD) := k0_pay5 (rdA (R2 c 0) (A0 m c))
def A0r (c : Dev nD) : CA (F := F) := wrA (R3 c 0) (A0 m c) (k0_pay6 (rdA (R3 c 0) (A0 m c)) (rs0 m (lft c)))
def A1 (c : Dev nD) : CA (F := F) := wrA (R4 c 0) (A0r m c) (k0_pay8 (rdA (R4 c 0) (A0r m c)) (k0_pay7 (ls0 m (rgt c))))

def rs1 (c : Dev nD) := k0_pay9 (rdA (R1 c 1) (A1 m c))
def ls1 (c : Dev nD) := k0_pay10 (rdA (R2 c 1) (A1 m c))
def A1r (c : Dev nD) : CA (F := F) := wrA (R3 c 1) (A1 m c) (k0_pay11 (rdA (R3 c 1) (A1 m c)) (rs1 m (lft c)))
def A2 (c : Dev nD) : CA (F := F) := wrA (R4 c 1) (A1r m c) (k0_pay12 (rdA (R4 c 1) (A1r m c)) (ls1 m (rgt c)))

def rs2 (c : Dev nD) := k0_pay13 (rdA (R1 c 2) (A2 m c))
def ls2 (c : Dev nD) := k0_pay14 (rdA (R2 c 2) (A2 m c))
def A2r (c : Dev nD) : CA (F := F) := wrA (R3 c 2) (A2 m c) (k0_pay16 (k0_pay15 (rdA (R3 c 2) (A2 m c)) (rs2 m (lft c))))
def A3 (c : Dev nD) : CA (F := F) := wrA (R4 c 2) (A2r m c) (k0_pay17 (rdA (R4 c 2) (A2r m c)) (ls2 m (rgt c)))

def O0 (c : Dev nD) : CO (F := F) := A3 m c

def rs3 (c : Dev nD) := k0_pay18 (rdO (R5 c 0) (O0 m c))
def ls3 (c : Dev nD) := k0_pay19 (rdO (R6 c 0) (O0 m c))
def O0r (c : Dev nD) : CO (F := F) := wrO (R1 c 0) (O0 m c) (k0_pay20 (rs3 m (lft c)))
def O1 (c : Dev nD) : CO (F := F) := wrO (R2 c 0) (O0r m c) (k0_pay21 (ls3 m (rgt c)))

def rs4 (c : Dev nD) := k0_pay22 (rdO (R5 c 1) (O1 m c))
def ls4 (c : Dev nD) := k0_pay23 (rdO (R6 c 1) (O1 m c))
def O1r (c : Dev nD) : CO (F := F) := wrO (R1 c 1) (O1 m c) (k0_pay24 (rs4 m (lft c)))
def O2 (c : Dev nD) : CO (F := F) := wrO (R2 c 1) (O1r m c) (k0_pay25 (ls4 m (rgt c)))

def rs5 (c : Dev nD) := k0_pay26 (rdO (R5 c 2) (O2 m c))
def ls5 (c : Dev nD) := k0_pay27 (rdO (R6 c 2) (O2 m c))
def O2r (c : Dev nD) : CO (F := F) := wrO (R1 c 2) (O2 m c) (k0_pay1 (rs5 m (lft c)))
def O3 (c : Dev nD) : CO (F := F) := wrO (R2 c 2) (O2r m c) (k0_pay2 (ls5 m (rgt c)))

def rsv (t : ℕ) (c : Dev nD) : FVec F S1x128x512 .bf16 :=
  match t with | 0 => rs0 m c | 1 => rs1 m c | 2 => rs2 m c | 3 => rs3 m c | 4 => rs4 m c | _ => rs5 m c
def lsv (t : ℕ) (c : Dev nD) : FVec F S1x128x512 .bf16 :=
  match t with | 0 => ls0 m c | 1 => ls1 m c | 2 => ls2 m c | 3 => ls3 m c | 4 => ls4 m c | _ => ls5 m c

end Cert.KernelIdeal.AR

end
-- ==== Proof.Sched.lean ====
/- The schedule: the barrier cell has two unit duties in round 0; each transfer cell has one duty of one slot's credit in rounds 0 and 1
   (semaphore j serves steps j and j + 3), a send duty returning the source slot, a receive duty handing over the landed chunk. -/
import proofs.«900731_g7700000000000732_dist_ar_v7x_xyz2x4x4_z_m1024_n512_bf16_1_alg».proof.Proof.Vals

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

def ringIdx (s : SemLoc sig) : Option (Fin 4 × Fin 3) :=
  if s = .dma (semRS 0) then some (0, 0) else if s = .dma (semRS 1) then some (0, 1) else if s = .dma (semRS 2) then some (0, 2)
  else if s = .dma (semRR 0) then some (1, 0) else if s = .dma (semRR 1) then some (1, 1) else if s = .dma (semRR 2) then some (1, 2)
  else if s = .dma (semLS 0) then some (2, 0) else if s = .dma (semLS 1) then some (2, 1) else if s = .dma (semLS 2) then some (2, 2)
  else if s = .dma (semLR 0) then some (3, 0) else if s = .dma (semLR 1) then some (3, 1) else if s = .dma (semLR 2) then some (3, 2)
  else none

theorem ringIdx_RS (j : Fin 3) : ringIdx (.dma (semRS j) : SemLoc sig) = some (0, j) := by fin_cases j <;> decide
theorem ringIdx_RR (j : Fin 3) : ringIdx (.dma (semRR j) : SemLoc sig) = some (1, j) := by fin_cases j <;> decide
theorem ringIdx_LS (j : Fin 3) : ringIdx (.dma (semLS j) : SemLoc sig) = some (2, j) := by fin_cases j <;> decide
theorem ringIdx_LR (j : Fin 3) : ringIdx (.dma (semLR j) : SemLoc sig) = some (3, j) := by fin_cases j <;> decide
theorem ringIdx_bar : ringIdx (.reg barS : SemLoc sig) = none := by decide

def barPayT (c : Dev nD) : sProp 𝕄 :=
  iprop((∃ f, slotPts rM (rgt c) 1 (by decide) f) ∗ (∃ f, slotPts rM (rgt c) 3 (by decide) f) ∗ (∃ f, slotPts rM (rgt c) 5 (by decide) f)
    ∗ (∃ f, slotPts rM (rgt c) 7 (by decide) f) ∗ (∃ f, slotPts rM (rgt c) 9 (by decide) f) ∗ (∃ f, slotPts rM (rgt c) 11 (by decide) f))

def barPayF (c : Dev nD) : sProp 𝕄 :=
  iprop((∃ f, slotPts lM (lft c) 1 (by decide) f) ∗ (∃ f, slotPts lM (lft c) 3 (by decide) f) ∗ (∃ f, slotPts lM (lft c) 5 (by decide) f)
    ∗ (∃ f, slotPts lM (lft c) 7 (by decide) f) ∗ (∃ f, slotPts lM (lft c) 9 (by decide) f) ∗ (∃ f, slotPts lM (lft c) 11 (by decide) f))

theorem ev12 {t : ℕ} (h : t < 6) : 2 * t < 12 := by omega
theorem od12 {t : ℕ} (h : t < 6) : 2 * t + 1 < 12 := by omega

def sendPay (M : Memref sig .tc .vmem S12x128x512 .bf16) (c : Dev nD) (t : ℕ) : sProp 𝕄 :=
  if h : t < 6 then iprop(∃ f, slotPts M c (2 * t) (ev12 h) f) else iprop(emp)

def fbR (c : Dev nD) (t : ℕ) : sProp 𝕄 := if 1 ≤ t ∧ t ≤ 3 then reached ER (cLR (lft c) (sj (t - 1))) 1 else iprop(emp)
def fbL (c : Dev nD) (t : ℕ) : sProp 𝕄 := if 1 ≤ t ∧ t ≤ 3 then reached ER (cRR (rgt c) (sj (t - 1))) 1 else iprop(emp)

def landed (M : Memref sig .tc .vmem S12x128x512 .bf16) (c d : Dev nD) (t : ℕ) (h : t < 6) (v : FVec F S1x128x512 .bf16) : sProp 𝕄 :=
  iprop(∃ (fd : Buf (Elt F) ((slotOf M (2 * t + 1) (od12 h)).view.loc (c : Thread nD τ)))
      (f : Buf (Elt F) ((slotOf M (2 * t) (ev12 h)).view.loc (d : Thread nD τ))),
    slotPts M c (2 * t + 1) (od12 h)
      ((slotOf M (2 * t + 1) (od12 h)).view.write (Elt F) fd
        ((slotOf M (2 * t) (ev12 h)).view.read (Elt F) ((M.access (rectS (2 * t) (ev12 h))).write (Elt F) f v Finset.univ)) Finset.univ))

def recvPayR (c : Dev nD) (t : ℕ) : sProp 𝕄 :=
  if h : t < 6 then iprop(landed rM c (lft c) t h (rsv m t (lft c)) ∗ fbR c t) else iprop(emp)
def recvPayL (c : Dev nD) (t : ℕ) : sProp 𝕄 :=
  if h : t < 6 then iprop(landed lM c (rgt c) t h (lsv m t (rgt c)) ∗ fbL c t) else iprop(emp)

def ringRd : Rounds.Schedule (GSem nD τ sig) Bool 𝕄 where
  duties g r :=
    if g.1.2 = .tc ∧ g.2 = .reg barS ∧ r = 0 then Finset.univ
    else if g.1.2 = .tc ∧ (ringIdx g.2).isSome ∧ r < 2 then {false} else ∅
  unitless _ := False
  amount g _ _ := if g.2 = .reg barS then 1 else N
  payload g r d :=
    if g.2 = .reg barS then (if d then barPayT g.1.1 else barPayF g.1.1)
    else match ringIdx g.2 with
      | some (0, j) => sendPay rM g.1.1 (j.val + 3 * r)
      | some (1, j) => recvPayR m g.1.1 (j.val + 3 * r)
      | some (2, j) => sendPay lM g.1.1 (j.val + 3 * r)
      | some (3, j) => recvPayL m g.1.1 (j.val + 3 * r)
      | _ => iprop(emp)
  amount_pos g _ _ _ := by
    by_cases h : g.2 = .reg barS
    · rw [if_pos h]; exact Nat.one_pos
    · rw [if_neg h]; exact View.dmaCredit_pos _ (by decide)

end Cert.KernelIdeal.AR

end
-- ==== Proof.Atoms.lean ====
/- Ghost state, debts and levels: what a device still owes after n of its fourteen payments, and the body's pre- and postcondition. -/
import proofs.«900731_g7700000000000732_dist_ar_v7x_xyz2x4x4_z_m1024_n512_bf16_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

abbrev csem : Fin 13 → SemLoc sig := fun
  | 0 => .reg barS
  | 1 => .dma (semRS 0) | 2 => .dma (semRS 1) | 3 => .dma (semRS 2)
  | 4 => .dma (semRR 0) | 5 => .dma (semRR 1) | 6 => .dma (semRR 2)
  | 7 => .dma (semLS 0) | 8 => .dma (semLS 1) | 9 => .dma (semLS 2)
  | 10 => .dma (semLR 0) | 11 => .dma (semLR 1) | 12 => .dma (semLR 2)
abbrev kcell (ck : Dev nD × Fin 13) : GSem nD τ sig := ((ck.1 : Thread nD τ), csem ck.2)

abbrev osem : Fin 12 → SemLoc sig := fun k => csem ⟨k.val + 1, by omega⟩

abbrev iBar : Fin 13 := 0
abbrev iRS (j : Fin 3) : Fin 13 := ⟨1 + j.val, by omega⟩
abbrev iRR (j : Fin 3) : Fin 13 := ⟨4 + j.val, by omega⟩
abbrev iLS (j : Fin 3) : Fin 13 := ⟨7 + j.val, by omega⟩
abbrev iLR (j : Fin 3) : Fin 13 := ⟨10 + j.val, by omega⟩

theorem kcell_RS (c : Dev nD) (j : Fin 3) : kcell (c, iRS j) = cRS c j := by fin_cases j <;> rfl
theorem kcell_RR (c : Dev nD) (j : Fin 3) : kcell (c, iRR j) = cRR c j := by fin_cases j <;> rfl
theorem kcell_LS (c : Dev nD) (j : Fin 3) : kcell (c, iLS j) = cLS c j := by fin_cases j <;> rfl
theorem kcell_LR (c : Dev nD) (j : Fin 3) : kcell (c, iLR j) = cLR c j := by fin_cases j <;> rfl

def records (K : Dev nD × Fin 13 → ℕ) : sProp 𝕄 :=
  iprop((bigSep Finset.univ fun ck : Dev nD × Fin 13 => cellInv ER (ringRd m) (K ck) (kcell ck))
    ∗ bigSep Finset.univ fun ck : Dev nD × Fin 13 => reached ER (kcell ck) 0)

instance records_persistent (K : Dev nD × Fin 13 → ℕ) : BI.Persistent (records m K) := by unfold records; infer_instance

theorem inv_at (K : Dev nD × Fin 13 → ℕ) (ck : Dev nD × Fin 13) : records m K ⊢ cellInv ER (ringRd m) (K ck) (kcell ck) :=
  (show records m K ⊢ (bigSep Finset.univ fun ck : Dev nD × Fin 13 => (cellInv ER (ringRd m) (K ck) (kcell ck) : sProp 𝕄)) from by
    unfold records; iintro ⟨H, -⟩; iexact H).trans (bigSep_elim (Finset.mem_univ ck))
theorem reached0_at (K : Dev nD × Fin 13 → ℕ) (ck : Dev nD × Fin 13) : records m K ⊢ reached ER (kcell ck) 0 :=
  (show records m K ⊢ (bigSep Finset.univ fun ck : Dev nD × Fin 13 => (reached ER (kcell ck) 0 : sProp 𝕄)) from by
    unfold records; iintro ⟨-, H⟩; iexact H).trans (bigSep_elim (Finset.mem_univ ck))
theorem reached0_RS (K : Dev nD × Fin 13 → ℕ) (c : Dev nD) (j : Fin 3) : records m K ⊢ reached ER (cRS c j) 0 := by
  have := reached0_at m K (c, iRS j); rwa [kcell_RS] at this
theorem reached0_RR (K : Dev nD × Fin 13 → ℕ) (c : Dev nD) (j : Fin 3) : records m K ⊢ reached ER (cRR c j) 0 := by
  have := reached0_at m K (c, iRR j); rwa [kcell_RR] at this
theorem reached0_LS (K : Dev nD × Fin 13 → ℕ) (c : Dev nD) (j : Fin 3) : records m K ⊢ reached ER (cLS c j) 0 := by
  have := reached0_at m K (c, iLS j); rwa [kcell_LS] at this
theorem reached0_LR (K : Dev nD × Fin 13 → ℕ) (c : Dev nD) (j : Fin 3) : records m K ⊢ reached ER (cLR c j) 0 := by
  have := reached0_at m K (c, iLR j); rwa [kcell_LR] at this

def stepToks (c : Dev nD) (t : ℕ) : sProp 𝕄 :=
  iprop(dutyTok ER (cRS c (sj t)) (rd t) false ∗ dutyTok ER (cRR (rgt c) (sj t)) (rd t) false
    ∗ dutyTok ER (cLS c (sj t)) (rd t) false ∗ dutyTok ER (cLR (lft c) (sj t)) (rd t) false)

def barToks (c : Dev nD) : sProp 𝕄 := iprop(dutyTok ER (cBar (lft c)) 0 true ∗ dutyTok ER (cBar (rgt c)) 0 false)

def payToks (c : Dev nD) : sProp 𝕄 :=
  iprop(barToks c ∗ stepToks c 0 ∗ stepToks c 1 ∗ stepToks c 2 ∗ stepToks c 3 ∗ stepToks c 4 ∗ stepToks c 5)

def posAll (c : Dev nD) : sProp 𝕄 := bigSep Finset.univ fun k : Fin 13 => atPos ER (kcell (c, k)) 0 ∅ 0

def ghost (K : Dev nD × Fin 13 → ℕ) (c : Dev nD) : sProp 𝕄 := iprop(records m K ∗ posAll c ∗ payToks c)

def stepCred (c : Dev nD) (t : ℕ) : sProp 𝕄 := iprop(cred (tallyAt (cRR c (sj t)) t N) ∗ cred (tallyAt (cLR c (sj t)) t N))
def creds (c : Dev nD) : sProp 𝕄 :=
  iprop(cred (tallyAt (cBar c) 0 2) ∗ stepCred c 0 ∗ stepCred c 1 ∗ stepCred c 2 ∗ stepCred c 3 ∗ stepCred c 4 ∗ stepCred c 5)

def payR (c : Dev nD) (t : ℕ) : CellTallies nD τ sig ℕ := tallyAt (cRR (rgt c) (sj t)) t N
def payL (c : Dev nD) (t : ℕ) : CellTallies nD τ sig ℕ := tallyAt (cLR (lft c) (sj t)) t N

def pays (c : Dev nD) : List (CellTallies nD τ sig ℕ) :=
  [tallyAt (cBar (lft c)) 0 1, tallyAt (cBar (rgt c)) 0 1,
   payR c 0, payL c 0, payR c 1, payL c 1, payR c 2, payL c 2, payR c 3, payL c 3, payR c 4, payL c 4, payR c 5, payL c 5]

def owedFrom (c : Dev nD) (n : ℕ) : CellTallies nD τ sig ℕ := ((pays c).drop n).foldr (fun x acc => acc + x) 0

def O₀ (c : Dev nD) : CellTallies nD τ sig ℕ := owedFrom c 0

def owesE (c : Dev nD) (n : ℕ) : sProp 𝕄 := iprop(∃ W : Waits sig ℕ, owes (c : Thread nD τ) (owedFrom c n) W)

def L (g : GSem nD τ sig) : Finset ℕ := if g.1.2 = .tc then Finset.range 6 else ∅
def lv (g : GSem nD τ sig) (ι : ℕ) : ℕ := if g.2 = .reg barS then 1 else if (ringIdx g.2).isSome then 2 + ι else 0

theorem L_of_ne (g : GSem nD τ sig) (h : g.1.2 ≠ .tc) : L g = ∅ := if_neg h
theorem L_tc (c : Dev nD) (sm : SemLoc sig) : L ((c : Thread nD τ), sm) = Finset.range 6 := if_pos rfl

def start (c : Dev nD) : sProp 𝕄 := iprop((∃ K, ghost m K c) ∗ creds c ∗ levAts L lv)

abbrev scr (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m c ∗ scr c cc0_scratch0 ∗ scr c cc0_scratch1 ∗ scr c cc0_scratch2)

def Φ₁ (c : Dev nD) : sProp 𝕄 :=
  iprop((scr c cc0_scratch0 ∗ scr c cc0_scratch1 ∗ scr c cc0_scratch2) ∗ bigSep Finset.univ fun k : Fin 12 => semVal ((c : Thread nD τ), osem k) 0)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => O3 m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 13 → ℕ) (c : Dev nD) : sProp 𝕄 :=
  iprop((ghost m K c ∗ creds c ∗ levAts L lv ∗ scr c cc0_scratch0 ∗ scr c cc0_scratch1 ∗ scr c cc0_scratch2)
    ∗ (dats m 0 c).owesAt 0 t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt 0 t₀.succ ∗ stg c cc0_stg0_0 (xstg m c) ∗ stg c cc0_stg1_0 (O3 m c))

theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

end Cert.KernelIdeal.AR

end
-- ==== Proof.SchedTables.lean ====
/- The schedule read at each named cell: duties, amounts, totals and payloads. -/
import proofs.«900731_g7700000000000732_dist_ar_v7x_xyz2x4x4_z_m1024_n512_bf16_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem dma_ne_bar (q : DmaSem sig) : (SemLoc.dma q : SemLoc sig) ≠ .reg barS := fun h => by cases h

section Tables
variable (c : Dev nD) (j : Fin 3) (r : ℕ) (d : Bool)

theorem duties_bar : (ringRd (F := F) m).duties (cBar c) 0 = Finset.univ := by
  dsimp only [ringRd]; exact if_pos ⟨rfl, rfl, rfl⟩

theorem duties_RS (hr : r < 2) : (ringRd (F := F) m).duties (cRS c j) r = {false} := by
  have h1 : ¬ ((cRS c j).1.2 = .tc ∧ (cRS c j).2 = .reg barS ∧ r = 0) := fun h => dma_ne_bar _ h.2.1
  have h2 : (cRS c j).1.2 = .tc ∧ (ringIdx (cRS c j).2).isSome = true ∧ r < 2 :=
    ⟨rfl, by rw [show (cRS c j).2 = (.dma (semRS j) : SemLoc sig) from rfl, ringIdx_RS]; rfl, hr⟩
  dsimp only [ringRd]; rw [if_neg h1, if_pos h2]
theorem duties_RR (hr : r < 2) : (ringRd (F := F) m).duties (cRR c j) r = {false} := by
  have h1 : ¬ ((cRR c j).1.2 = .tc ∧ (cRR c j).2 = .reg barS ∧ r = 0) := fun h => dma_ne_bar _ h.2.1
  have h2 : (cRR c j).1.2 = .tc ∧ (ringIdx (cRR c j).2).isSome = true ∧ r < 2 :=
    ⟨rfl, by rw [show (cRR c j).2 = (.dma (semRR j) : SemLoc sig) from rfl, ringIdx_RR]; rfl, hr⟩
  dsimp only [ringRd]; rw [if_neg h1, if_pos h2]
theorem duties_LS (hr : r < 2) : (ringRd (F := F) m).duties (cLS c j) r = {false} := by
  have h1 : ¬ ((cLS c j).1.2 = .tc ∧ (cLS c j).2 = .reg barS ∧ r = 0) := fun h => dma_ne_bar _ h.2.1
  have h2 : (cLS c j).1.2 = .tc ∧ (ringIdx (cLS c j).2).isSome = true ∧ r < 2 :=
    ⟨rfl, by rw [show (cLS c j).2 = (.dma (semLS j) : SemLoc sig) from rfl, ringIdx_LS]; rfl, hr⟩
  dsimp only [ringRd]; rw [if_neg h1, if_pos h2]
theorem duties_LR (hr : r < 2) : (ringRd (F := F) m).duties (cLR c j) r = {false} := by
  have h1 : ¬ ((cLR c j).1.2 = .tc ∧ (cLR c j).2 = .reg barS ∧ r = 0) := fun h => dma_ne_bar _ h.2.1
  have h2 : (cLR c j).1.2 = .tc ∧ (ringIdx (cLR c j).2).isSome = true ∧ r < 2 :=
    ⟨rfl, by rw [show (cLR c j).2 = (.dma (semLR j) : SemLoc sig) from rfl, ringIdx_LR]; rfl, hr⟩
  dsimp only [ringRd]; rw [if_neg h1, if_pos h2]

theorem duties_dma_later (q : DmaSem sig) (hr : 2 ≤ r) : (ringRd (F := F) m).duties ((c : Thread nD τ), .dma q) r = ∅ := by
  have h1 : ¬ (((c : Thread nD τ), (SemLoc.dma q : SemLoc sig)).1.2 = .tc ∧ ((c : Thread nD τ), (SemLoc.dma q : SemLoc sig)).2 = .reg barS ∧ r = 0) :=
    fun h => dma_ne_bar _ h.2.1
  have h2 : ¬ (((c : Thread nD τ), (SemLoc.dma q : SemLoc sig)).1.2 = .tc ∧ (ringIdx ((c : Thread nD τ), (SemLoc.dma q : SemLoc sig)).2).isSome = true ∧ r < 2) :=
    fun h => by omega
  dsimp only [ringRd]; rw [if_neg h1, if_neg h2]

theorem amount_bar : (ringRd (F := F) m).amount (cBar c) r d = 1 := by dsimp only [ringRd]; exact if_pos rfl
theorem amount_RS : (ringRd (F := F) m).amount (cRS c j) r d = N := by dsimp only [ringRd]; exact if_neg (dma_ne_bar _)
theorem amount_RR : (ringRd (F := F) m).amount (cRR c j) r d = N := by dsimp only [ringRd]; exact if_neg (dma_ne_bar _)
theorem amount_LS : (ringRd (F := F) m).amount (cLS c j) r d = N := by dsimp only [ringRd]; exact if_neg (dma_ne_bar _)
theorem amount_LR : (ringRd (F := F) m).amount (cLR c j) r d = N := by dsimp only [ringRd]; exact if_neg (dma_ne_bar _)

theorem expect_bar : (ringRd (F := F) m).expect (cBar c) 0 = 2 := by
  unfold Schedule.expect Schedule.amountOf
  rw [duties_bar, Finset.sum_congr rfl fun d _ => amount_bar m c 0 d, Finset.sum_const, Finset.card_univ, Fintype.card_bool, smul_eq_mul]
theorem expect_RS (hr : r < 2) : (ringRd (F := F) m).expect (cRS c j) r = N := by
  unfold Schedule.expect Schedule.amountOf; rw [duties_RS m c j r hr, Finset.sum_singleton, amount_RS]
theorem expect_RR (hr : r < 2) : (ringRd (F := F) m).expect (cRR c j) r = N := by
  unfold Schedule.expect Schedule.amountOf; rw [duties_RR m c j r hr, Finset.sum_singleton, amount_RR]
theorem expect_LS (hr : r < 2) : (ringRd (F := F) m).expect (cLS c j) r = N := by
  unfold Schedule.expect Schedule.amountOf; rw [duties_LS m c j r hr, Finset.sum_singleton, amount_LS]
theorem expect_LR (hr : r < 2) : (ringRd (F := F) m).expect (cLR c j) r = N := by
  unfold Schedule.expect Schedule.amountOf; rw [duties_LR m c j r hr, Finset.sum_singleton, amount_LR]

theorem payload_bar_true : (ringRd (F := F) m).payload (cBar c) 0 true = barPayT c := by
  dsimp only [ringRd]; rw [if_pos rfl, if_pos rfl]
theorem payload_bar_false : (ringRd (F := F) m).payload (cBar c) 0 false = barPayF c := by
  dsimp only [ringRd]; rw [if_pos rfl]; exact if_neg Bool.false_ne_true

theorem payload_RS : (ringRd (F := F) m).payload (cRS c j) r d = sendPay rM c (j.val + 3 * r) := by
  dsimp only [ringRd]; rw [if_neg (dma_ne_bar _), ringIdx_RS]; rfl
theorem payload_RR : (ringRd (F := F) m).payload (cRR c j) r d = recvPayR m c (j.val + 3 * r) := by
  dsimp only [ringRd]; rw [if_neg (dma_ne_bar _), ringIdx_RR]; rfl
theorem payload_LS : (ringRd (F := F) m).payload (cLS c j) r d = sendPay lM c (j.val + 3 * r) := by
  dsimp only [ringRd]; rw [if_neg (dma_ne_bar _), ringIdx_LS]; rfl
theorem payload_LR : (ringRd (F := F) m).payload (cLR c j) r d = recvPayL m c (j.val + 3 * r) := by
  dsimp only [ringRd]; rw [if_neg (dma_ne_bar _), ringIdx_LR]; rfl

theorem rest_bar : bigSep ((ringRd (F := F) m).duties (cBar c) 0 \ ∅) (fun d => (ringRd (F := F) m).payload (cBar c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_RS (hr : r < 2) : bigSep ((ringRd (F := F) m).duties (cRS c j) r \ ∅) (fun d => (ringRd (F := F) m).payload (cRS c j) r d) = sendPay rM c (j.val + 3 * r) := by
  rw [Finset.sdiff_empty, duties_RS m c j r hr, bigSep_singleton, payload_RS]
theorem rest_RR (hr : r < 2) : bigSep ((ringRd (F := F) m).duties (cRR c j) r \ ∅) (fun d => (ringRd (F := F) m).payload (cRR c j) r d) = recvPayR m c (j.val + 3 * r) := by
  rw [Finset.sdiff_empty, duties_RR m c j r hr, bigSep_singleton, payload_RR]
theorem rest_LS (hr : r < 2) : bigSep ((ringRd (F := F) m).duties (cLS c j) r \ ∅) (fun d => (ringRd (F := F) m).payload (cLS c j) r d) = sendPay lM c (j.val + 3 * r) := by
  rw [Finset.sdiff_empty, duties_LS m c j r hr, bigSep_singleton, payload_LS]
theorem rest_LR (hr : r < 2) : bigSep ((ringRd (F := F) m).duties (cLR c j) r \ ∅) (fun d => (ringRd (F := F) m).payload (cLR c j) r d) = recvPayL m c (j.val + 3 * r) := by
  rw [Finset.sdiff_empty, duties_LR m c j r hr, bigSep_singleton, payload_LR]

end Tables

theorem step_idx (t : ℕ) (h : t < 6) : (sj t).val + 3 * rd t = t := by
  show t % 3 + 3 * (t / 3) = t; omega

theorem sendPay_lt (M : Memref sig .tc .vmem S12x128x512 .bf16) (c : Dev nD) (t : ℕ) (h : t < 6) :
    sendPay (F := F) M c t = iprop(∃ f, slotPts M c (2 * t) (ev12 h) f) := by
  unfold sendPay; rw [dif_pos h]
theorem recvPayR_lt (c : Dev nD) (t : ℕ) (h : t < 6) :
    recvPayR (F := F) m c t = iprop(landed rM c (lft c) t h (rsv m t (lft c)) ∗ fbR c t) := by
  unfold recvPayR; rw [dif_pos h]
theorem recvPayL_lt (c : Dev nD) (t : ℕ) (h : t < 6) :
    recvPayL (F := F) m c t = iprop(landed lM c (rgt c) t h (lsv m t (rgt c)) ∗ fbL c t) := by
  unfold recvPayL; rw [dif_pos h]

instance slotPts_storable (M : Memref sig .tc .vmem S12x128x512 .bf16) (c : Dev nD) (k : ℕ) (hk : k < 12) (f) :
    BI.Storable (upEmb : UEmb _ 𝕄) (slotPts (F := F) M c k hk f) := by unfold slotPts; infer_instance
instance barPayT_storable (c : Dev nD) : BI.Storable (upEmb : UEmb _ 𝕄) (barPayT (F := F) c) := by unfold barPayT; infer_instance
instance barPayF_storable (c : Dev nD) : BI.Storable (upEmb : UEmb _ 𝕄) (barPayF (F := F) c) := by unfold barPayF; infer_instance
instance sendPay_storable (M : Memref sig .tc .vmem S12x128x512 .bf16) (c : Dev nD) (t : ℕ) :
    BI.Storable (upEmb : UEmb _ 𝕄) (sendPay (F := F) M c t) := by unfold sendPay; split <;> infer_instance
instance fbR_storable (c : Dev nD) (t : ℕ) : BI.Storable (upEmb : UEmb _ 𝕄) (fbR (F := F) c t) := by unfold fbR; split <;> infer_instance
instance fbL_storable (c : Dev nD) (t : ℕ) : BI.Storable (upEmb : UEmb _ 𝕄) (fbL (F := F) c t) := by unfold fbL; split <;> infer_instance
instance landed_storable (M : Memref sig .tc .vmem S12x128x512 .bf16) (c d : Dev nD) (t : ℕ) (h : t < 6) (v : FVec F S1x128x512 .bf16) :
    BI.Storable (upEmb : UEmb _ 𝕄) (landed M c d t h v) := by unfold landed; infer_instance
instance recvPayR_storable (c : Dev nD) (t : ℕ) : BI.Storable (upEmb : UEmb _ 𝕄) (recvPayR (F := F) m c t) := by
  unfold recvPayR; split <;> infer_instance
instance recvPayL_storable (c : Dev nD) (t : ℕ) : BI.Storable (upEmb : UEmb _ 𝕄) (recvPayL (F := F) m c t) := by
  unfold recvPayL; split <;> infer_instance

instance ringRd_payload_storable (g : GSem nD τ sig) (r : ℕ) (d : Bool) :
    BI.Storable (upEmb : UEmb _ 𝕄) ((ringRd (F := F) m).payload g r d) := by
  dsimp only [ringRd]
  (repeat' split) <;> infer_instance

end Cert.KernelIdeal.AR

end
-- ==== Proof.Levels.lean ====
/- Every wait is on a cell whose level lies below all that the waiter still owes: the barrier below every transfer, step t below every later step. -/
import proofs.«900731_g7700000000000732_dist_ar_v7x_xyz2x4x4_z_m1024_n512_bf16_1_alg».proof.Proof.Atoms
import Mathlib.Tactic.IntervalCases

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (tallyAt_pos add_pos_cases mayWait_of_levAts)

variable {F : FTy → Type} [FloatOps F]

local notation "𝕄" => MT nD τ sig ℕ (Elt F) ℕ UU ℕ

theorem pays_length (c : Dev nD) : (pays c).length = 14 := rfl

theorem foldr_pos_exists {l : List (CellTallies nD τ sig ℕ)} {g : GSem nD τ sig} {u : ℕ}
    (h : 0 < (l.foldr (fun x acc => acc + x) (0 : CellTallies nD τ sig ℕ)) g u) : ∃ x ∈ l, 0 < x g u := by
  induction l with
  | nil => exact absurd h (Nat.lt_irrefl 0)
  | cons a l ih =>
    rw [List.foldr_cons] at h
    rcases add_pos_cases h with h | h
    · obtain ⟨x, hx, hx'⟩ := ih h; exact ⟨x, List.mem_cons_of_mem _ hx, hx'⟩
    · exact ⟨a, List.mem_cons_self, h⟩

theorem pays_pos {c : Dev nD} {k : ℕ} (hk : k < (pays c).length) {g : GSem nD τ sig} {u : ℕ} (h : 0 < (pays c)[k] g u) :
    (k = 0 ∧ g = cBar (lft c) ∧ u = 0) ∨ (k = 1 ∧ g = cBar (rgt c) ∧ u = 0)
      ∨ (∃ t, t < 6 ∧ k = 2 + 2 * t ∧ g = cRR (rgt c) (sj t) ∧ u = t)
      ∨ (∃ t, t < 6 ∧ k = 2 + 2 * t + 1 ∧ g = cLR (lft c) (sj t) ∧ u = t) := by
  have hk' : k < 14 := hk
  interval_cases k
  · obtain ⟨rfl, rfl⟩ := tallyAt_pos h; exact Or.inl ⟨rfl, rfl, rfl⟩
  · obtain ⟨rfl, rfl⟩ := tallyAt_pos h; exact Or.inr (Or.inl ⟨rfl, rfl, rfl⟩)
  · obtain ⟨rfl, rfl⟩ := tallyAt_pos h; exact Or.inr (Or.inr (Or.inl ⟨0, by decide, rfl, rfl, rfl⟩))
  · obtain ⟨rfl, rfl⟩ := tallyAt_pos h; exact Or.inr (Or.inr (Or.inr ⟨0, by decide, rfl, rfl, rfl⟩))
  · obtain ⟨rfl, rfl⟩ := tallyAt_pos h; exact Or.inr (Or.inr (Or.inl ⟨1, by decide, rfl, rfl, rfl⟩))
  · obtain ⟨rfl, rfl⟩ := tallyAt_pos h; exact Or.inr (Or.inr (Or.inr ⟨1, by decide, rfl, rfl, rfl⟩))
  · obtain ⟨rfl, rfl⟩ := tallyAt_pos h; exact Or.inr (Or.inr (Or.inl ⟨2, by decide, rfl, rfl, rfl⟩))
  · obtain ⟨rfl, rfl⟩ := tallyAt_pos h; exact Or.inr (Or.inr (Or.inr ⟨2, by decide, rfl, rfl, rfl⟩))
  · obtain ⟨rfl, rfl⟩ := tallyAt_pos h; exact Or.inr (Or.inr (Or.inl ⟨3, by decide, rfl, rfl, rfl⟩))
  · obtain ⟨rfl, rfl⟩ := tallyAt_pos h; exact Or.inr (Or.inr (Or.inr ⟨3, by decide, rfl, rfl, rfl⟩))
  · obtain ⟨rfl, rfl⟩ := tallyAt_pos h; exact Or.inr (Or.inr (Or.inl ⟨4, by decide, rfl, rfl, rfl⟩))
  · obtain ⟨rfl, rfl⟩ := tallyAt_pos h; exact Or.inr (Or.inr (Or.inr ⟨4, by decide, rfl, rfl, rfl⟩))
  · obtain ⟨rfl, rfl⟩ := tallyAt_pos h; exact Or.inr (Or.inr (Or.inl ⟨5, by decide, rfl, rfl, rfl⟩))
  · obtain ⟨rfl, rfl⟩ := tallyAt_pos h; exact Or.inr (Or.inr (Or.inr ⟨5, by decide, rfl, rfl, rfl⟩))

theorem owedFrom_pos {c : Dev nD} {n : ℕ} {g : GSem nD τ sig} {u : ℕ} (h : 0 < owedFrom c n g u) :
    (n ≤ 0 ∧ g = cBar (lft c) ∧ u = 0) ∨ (n ≤ 1 ∧ g = cBar (rgt c) ∧ u = 0)
      ∨ (∃ t, t < 6 ∧ n ≤ 2 + 2 * t ∧ g = cRR (rgt c) (sj t) ∧ u = t)
      ∨ (∃ t, t < 6 ∧ n ≤ 2 + 2 * t + 1 ∧ g = cLR (lft c) (sj t) ∧ u = t) := by
  unfold owedFrom at h
  obtain ⟨x, hx, hpos⟩ := foldr_pos_exists h
  obtain ⟨i, hi, rfl⟩ := List.mem_iff_getElem.mp hx
  rw [List.getElem_drop] at hpos
  rcases pays_pos _ hpos with ⟨hk, hg, hu⟩ | ⟨hk, hg, hu⟩ | ⟨t, ht, hk, hg, hu⟩ | ⟨t, ht, hk, hg, hu⟩
  · exact Or.inl ⟨by omega, hg, hu⟩
  · exact Or.inr (Or.inl ⟨by omega, hg, hu⟩)
  · exact Or.inr (Or.inr (Or.inl ⟨t, ht, by omega, hg, hu⟩))
  · exact Or.inr (Or.inr (Or.inr ⟨t, ht, by omega, hg, hu⟩))

theorem lv_bar (c : Dev nD) (ι : ℕ) : lv (cBar c) ι = 1 := if_pos rfl

theorem lv_ring (c : Dev nD) (s : SemLoc sig) (hs : (ringIdx s).isSome) (ι : ℕ) : lv ((c : Thread nD τ), s) ι = 2 + ι := by
  have hne : s ≠ .reg barS := fun h => by rw [h, ringIdx_bar] at hs; exact absurd hs (by decide)
  unfold lv; rw [if_neg hne, if_pos hs]

theorem lv_RR (c : Dev nD) (j : Fin 3) (ι : ℕ) : lv (cRR c j) ι = 2 + ι := lv_ring c _ (by rw [ringIdx_RR]; rfl) ι
theorem lv_LR (c : Dev nD) (j : Fin 3) (ι : ℕ) : lv (cLR c j) ι = 2 + ι := lv_ring c _ (by rw [ringIdx_LR]; rfl) ι

theorem lv_stage (c : Dev nD) (q : DmaSem sig) (hq : ringIdx (.dma q : SemLoc sig) = none) (ι : ℕ) :
    lv ((c : Thread nD τ), .dma q) ι = 0 := by
  unfold lv; rw [if_neg (fun h => by cases h), if_neg (by rw [hq]; decide)]

theorem mem_L (c : Dev nD) (s : SemLoc sig) {t : ℕ} (h : t < 6) : t ∈ L ((c : Thread nD τ), s) := by
  rw [L_tc]; exact Finset.mem_range.mpr h

/-- The barrier's level is below every transfer cell's. -/
theorem mayWait_bar (c : Dev nD) : (levAts L lv : sProp 𝕄) ⊢ MayWait (c : Thread nD τ) (.reg barS) 0 (owedFrom c 2) :=
  mayWait_of_levAts (L := L) (lev := lv) (mem_L c _ (by decide)) fun g i hg => by
    rcases owedFrom_pos hg with ⟨hn, -, -⟩ | ⟨hn, -, -⟩ | ⟨t, ht, -, rfl, rfl⟩ | ⟨t, ht, -, rfl, rfl⟩
    · omega
    · omega
    · exact ⟨mem_L _ _ ht, by rw [lv_bar, lv_RR]; omega⟩
    · exact ⟨mem_L _ _ ht, by rw [lv_bar, lv_LR]; omega⟩

/-- A wait of step t: what is still owed after step t's payments lies on a later step's cell, at a higher level. -/
theorem mayWait_step (c : Dev nD) (t : ℕ) (h : t < 6) (s : SemLoc sig) (hs : (ringIdx s).isSome) :
    (levAts L lv : sProp 𝕄) ⊢ MayWait (c : Thread nD τ) s t (owedFrom c (2 + 2 * t + 2)) :=
  mayWait_of_levAts (L := L) (lev := lv) (mem_L c s h) fun g i hg => by
    rcases owedFrom_pos hg with ⟨hn, -, -⟩ | ⟨hn, -, -⟩ | ⟨t', ht, hn, rfl, rfl⟩ | ⟨t', ht, hn, rfl, rfl⟩
    · omega
    · omega
    · exact ⟨mem_L _ _ ht, by rw [lv_ring c s hs, lv_RR]; omega⟩
    · exact ⟨mem_L _ _ ht, by rw [lv_ring c s hs, lv_LR]; omega⟩

theorem mayWait_stage (c : Dev nD) (q : DmaSem sig) (hq : ringIdx (.dma q : SemLoc sig) = none) (O : CellTallies nD τ sig ℕ)
    (hO : O = O₀ c ∨ O = 0) : (levAts L lv : sProp 𝕄) ⊢ MayWait (c : Thread nD τ) (.dma q) 0 O := by
  rcases hO with rfl | rfl
  · refine mayWait_of_levAts (L := L) (lev := lv) (mem_L c _ (by decide)) fun g i hg => ?_
    rcases owedFrom_pos (show 0 < owedFrom c 0 g i from hg) with ⟨-, rfl, rfl⟩ | ⟨-, rfl, rfl⟩ | ⟨t, ht, -, rfl, rfl⟩ | ⟨t, ht, -, rfl, rfl⟩
    · exact ⟨mem_L _ _ (by decide), by rw [lv_stage c q hq, lv_bar]; decide⟩
    · exact ⟨mem_L _ _ (by decide), by rw [lv_stage c q hq, lv_bar]; decide⟩
    · exact ⟨mem_L _ _ ht, by rw [lv_stage c q hq, lv_RR]; omega⟩
    · exact ⟨mem_L _ _ ht, by rw [lv_stage c q hq, lv_LR]; omega⟩
  · rw [MayWait_zero]; iintro -; iempintro

theorem owedFrom_0 (c : Dev nD) : owedFrom c 0 = owedFrom c 1 + tallyAt (cBar (lft c)) 0 1 := rfl
theorem owedFrom_1 (c : Dev nD) : owedFrom c 1 = owedFrom c 2 + tallyAt (cBar (rgt c)) 0 1 := rfl

end Cert.KernelIdeal.AR

end
-- ==== Proof.Launch.lean ====
/- The launch: the ghost state is allocated and dealt to the devices, every device's credit covers its waits, and the program runs. -/
import proofs.«900731_g7700000000000732_dist_ar_v7x_xyz2x4x4_z_m1024_n512_bf16_1_alg».proof.Proof.Atoms
import proofs.«900731_g7700000000000732_dist_ar_v7x_xyz2x4x4_z_m1024_n512_bf16_1_alg».proof.Proof.SchedTables
import proofs.«900731_g7700000000000732_dist_ar_v7x_xyz2x4x4_z_m1024_n512_bf16_1_alg».proof.Proof.Levels

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by clear h; revert k k'; decide
  subst this; rfl
def ringCells : Finset (GSem nD τ sig) := Finset.univ.map ⟨kcell, kcell_injective⟩

abbrev tokOf (cj : Dev nD × Fin 26) : GSem nD τ sig × ℕ × Bool := match cj.2 with
  | 0 => (cBar cj.1, 0, false) | 1 => (cBar cj.1, 0, true)
  | 2 => (cRS cj.1 (sj 0), rd 0, false) | 3 => (cRR cj.1 (sj 0), rd 0, false) | 4 => (cLS cj.1 (sj 0), rd 0, false) | 5 => (cLR cj.1 (sj 0), rd 0, false)
  | 6 => (cRS cj.1 (sj 1), rd 1, false) | 7 => (cRR cj.1 (sj 1), rd 1, false) | 8 => (cLS cj.1 (sj 1), rd 1, false) | 9 => (cLR cj.1 (sj 1), rd 1, false)
  | 10 => (cRS cj.1 (sj 2), rd 2, false) | 11 => (cRR cj.1 (sj 2), rd 2, false) | 12 => (cLS cj.1 (sj 2), rd 2, false) | 13 => (cLR cj.1 (sj 2), rd 2, false)
  | 14 => (cRS cj.1 (sj 3), rd 3, false) | 15 => (cRR cj.1 (sj 3), rd 3, false) | 16 => (cLS cj.1 (sj 3), rd 3, false) | 17 => (cLR cj.1 (sj 3), rd 3, false)
  | 18 => (cRS cj.1 (sj 4), rd 4, false) | 19 => (cRR cj.1 (sj 4), rd 4, false) | 20 => (cLS cj.1 (sj 4), rd 4, false) | 21 => (cLR cj.1 (sj 4), rd 4, false)
  | 22 => (cRS cj.1 (sj 5), rd 5, false) | 23 => (cRR cj.1 (sj 5), rd 5, false) | 24 => (cLS cj.1 (sj 5), rd 5, false) | 25 => (cLR cj.1 (sj 5), rd 5, false)
  | ⟨_ + 26, h⟩ => absurd h (Nat.not_lt.2 (Nat.le_add_left _ _))

abbrev keyTab (j : Fin 26) : SemLoc sig × ℕ × Bool :=
  ((tokOf ((0 : Dev nD), j)).1.2, (tokOf ((0 : Dev nD), j)).2.1, (tokOf ((0 : Dev nD), j)).2.2)
theorem keyTab_injective : Function.Injective keyTab := by decide
theorem tokOf_key (c : Dev nD) (j : Fin 26) : ((tokOf (c, j)).1.2, (tokOf (c, j)).2.1, (tokOf (c, j)).2.2) = keyTab j := by
  fin_cases j <;> rfl
theorem tokOf_dev (c : Dev nD) (j : Fin 26) : (tokOf (c, j)).1.1.1 = c := by fin_cases j <;> rfl

theorem tokOf_injective : Function.Injective (tokOf : Dev nD × Fin 26 → GSem nD τ sig × ℕ × Bool) := by
  rintro ⟨c, j⟩ ⟨c', j'⟩ h
  have h1 : c = c' := (tokOf_dev c j).symm.trans ((congrArg (fun x : GSem nD τ sig × ℕ × Bool => x.1.1.1) h).trans (tokOf_dev c' j'))
  subst h1
  have h2 : j = j' := keyTab_injective
    ((tokOf_key c j).symm.trans ((congrArg (fun x : GSem nD τ sig × ℕ × Bool => (x.1.2, x.2.1, x.2.2)) h).trans (tokOf_key c j')))
  subst h2; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop(dutyTok ER (cBar c) 0 false ∗ dutyTok ER (cBar c) 0 true
    ∗ dutyTok ER (cRS c (sj 0)) (rd 0) false ∗ dutyTok ER (cRR c (sj 0)) (rd 0) false ∗ dutyTok ER (cLS c (sj 0)) (rd 0) false ∗ dutyTok ER (cLR c (sj 0)) (rd 0) false
    ∗ dutyTok ER (cRS c (sj 1)) (rd 1) false ∗ dutyTok ER (cRR c (sj 1)) (rd 1) false ∗ dutyTok ER (cLS c (sj 1)) (rd 1) false ∗ dutyTok ER (cLR c (sj 1)) (rd 1) false
    ∗ dutyTok ER (cRS c (sj 2)) (rd 2) false ∗ dutyTok ER (cRR c (sj 2)) (rd 2) false ∗ dutyTok ER (cLS c (sj 2)) (rd 2) false ∗ dutyTok ER (cLR c (sj 2)) (rd 2) false
    ∗ dutyTok ER (cRS c (sj 3)) (rd 3) false ∗ dutyTok ER (cRR c (sj 3)) (rd 3) false ∗ dutyTok ER (cLS c (sj 3)) (rd 3) false ∗ dutyTok ER (cLR c (sj 3)) (rd 3) false
    ∗ dutyTok ER (cRS c (sj 4)) (rd 4) false ∗ dutyTok ER (cRR c (sj 4)) (rd 4) false ∗ dutyTok ER (cLS c (sj 4)) (rd 4) false ∗ dutyTok ER (cLR c (sj 4)) (rd 4) false
    ∗ dutyTok ER (cRS c (sj 5)) (rd 5) false ∗ dutyTok ER (cRR c (sj 5)) (rd 5) false ∗ dutyTok ER (cLS c (sj 5)) (rd 5) false ∗ dutyTok ER (cLR c (sj 5)) (rd 5) false)

def G (c : Dev nD) : sProp 𝕄 :=
  iprop((bigSep Finset.univ fun k : Fin 13 => roundState ER (ringRd m) (kcell (c, k)) 0)
    ∗ (bigSep Finset.univ fun k : Fin 13 => iprop(atPos ER (kcell (c, k)) 0 ∅ 0 ∗ reached ER (kcell (c, k)) 0)) ∗ toks c)

def G' (c : Dev nD) : sProp 𝕄 := iprop(∃ K, ghost m K c)

theorem bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin26]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (cBar c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨H, HB⟩
  iframe # ∗

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  iframe # ∗

theorem ghost_intro (K : Dev nD × Fin 13 → ℕ) (c : Dev nD) : iprop(records m K ∗ posAll c ∗ payToks c) ⊢ G' m c := by
  unfold G' ghost
  iintro H
  iexists K
  iexact H

theorem toks_around : (bigSep Finset.univ fun c : Dev nD => (toks c : sProp 𝕄)) ⊢ bigSep Finset.univ fun c : Dev nD => payToks c := by
  unfold toks payToks barToks stepToks
  simp only [bigSep_sep']
  rw [bigSep_univ_equiv ringR (fun c : Dev nD => (dutyTok ER (cBar c) 0 false : sProp 𝕄)),
    bigSep_univ_equiv ringR.symm (fun c : Dev nD => (dutyTok ER (cBar c) 0 true : sProp 𝕄)),
    bigSep_univ_equiv ringR (fun c : Dev nD => (dutyTok ER (cRR c (sj 0)) (rd 0) false : sProp 𝕄)),
    bigSep_univ_equiv ringR.symm (fun c : Dev nD => (dutyTok ER (cLR c (sj 0)) (rd 0) false : sProp 𝕄)),
    bigSep_univ_equiv ringR (fun c : Dev nD => (dutyTok ER (cRR c (sj 1)) (rd 1) false : sProp 𝕄)),
    bigSep_univ_equiv ringR.symm (fun c : Dev nD => (dutyTok ER (cLR c (sj 1)) (rd 1) false : sProp 𝕄)),
    bigSep_univ_equiv ringR (fun c : Dev nD => (dutyTok ER (cRR c (sj 2)) (rd 2) false : sProp 𝕄)),
    bigSep_univ_equiv ringR.symm (fun c : Dev nD => (dutyTok ER (cLR c (sj 2)) (rd 2) false : sProp 𝕄)),
    bigSep_univ_equiv ringR (fun c : Dev nD => (dutyTok ER (cRR c (sj 3)) (rd 3) false : sProp 𝕄)),
    bigSep_univ_equiv ringR.symm (fun c : Dev nD => (dutyTok ER (cLR c (sj 3)) (rd 3) false : sProp 𝕄)),
    bigSep_univ_equiv ringR (fun c : Dev nD => (dutyTok ER (cRR c (sj 4)) (rd 4) false : sProp 𝕄)),
    bigSep_univ_equiv ringR.symm (fun c : Dev nD => (dutyTok ER (cLR c (sj 4)) (rd 4) false : sProp 𝕄)),
    bigSep_univ_equiv ringR (fun c : Dev nD => (dutyTok ER (cRR c (sj 5)) (rd 5) false : sProp 𝕄)),
    bigSep_univ_equiv ringR.symm (fun c : Dev nD => (dutyTok ER (cLR c (sj 5)) (rd 5) false : sProp 𝕄))]
  iintro ⟨H0, H1, H2, H3, H4, H5, H6, H7, H8, H9, H10, H11, H12, H13, H14, H15, H16, H17, H18, H19, H20, H21, H22, H23, H24, H25⟩
  isplitl [H0 H1]
  · isplitl [H1]; · iexact H1
    iexact H0
  isplitl [H2 H3 H4 H5]
  · isplitl [H2]; · iexact H2
    isplitl [H3]; · iexact H3
    isplitl [H4]; · iexact H4
    iexact H5
  isplitl [H6 H7 H8 H9]
  · isplitl [H6]; · iexact H6
    isplitl [H7]; · iexact H7
    isplitl [H8]; · iexact H8
    iexact H9
  isplitl [H10 H11 H12 H13]
  · isplitl [H10]; · iexact H10
    isplitl [H11]; · iexact H11
    isplitl [H12]; · iexact H12
    iexact H13
  isplitl [H14 H15 H16 H17]
  · isplitl [H14]; · iexact H14
    isplitl [H15]; · iexact H15
    isplitl [H16]; · iexact H16
    iexact H17
  isplitl [H18 H19 H20 H21]
  · isplitl [H18]; · iexact H18
    isplitl [H19]; · iexact H19
    isplitl [H20]; · iexact H20
    iexact H21
  isplitl [H22]; · iexact H22
  isplitl [H23]; · iexact H23
  isplitl [H24]; · iexact H24
  iexact H25

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (ringRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (posAll c : sProp 𝕄)) payToks).symm)
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem O₀_eq : (O₀ : Dev nD → CellTallies nD τ sig ℕ) = fun d =>
    0
      + tallyAt (cLR (lft d) (sj 5)) 5 N
      + tallyAt (cRR (rgt d) (sj 5)) 5 N
      + tallyAt (cLR (lft d) (sj 4)) 4 N
      + tallyAt (cRR (rgt d) (sj 4)) 4 N
      + tallyAt (cLR (lft d) (sj 3)) 3 N
      + tallyAt (cRR (rgt d) (sj 3)) 3 N
      + tallyAt (cLR (lft d) (sj 2)) 2 N
      + tallyAt (cRR (rgt d) (sj 2)) 2 N
      + tallyAt (cLR (lft d) (sj 1)) 1 N
      + tallyAt (cRR (rgt d) (sj 1)) 1 N
      + tallyAt (cLR (lft d) (sj 0)) 0 N
      + tallyAt (cRR (rgt d) (sj 0)) 0 N
      + tallyAt (cBar (rgt d)) 0 1
      + tallyAt (cBar (lft d)) 0 1 := by
  funext d; rfl

theorem creds_intro (c : Dev nD) : (Pipeline.launchCred O₀ c : sProp 𝕄) ⊢ creds c := by
  rw [O₀_eq]
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_zero]
  iintro ⟨⟨⟨⟨⟨⟨⟨⟨⟨⟨⟨⟨⟨⟨-, HL5⟩, HR5⟩, HL4⟩, HR4⟩, HL3⟩, HR3⟩, HL2⟩, HR2⟩, HL1⟩, HR1⟩, HL0⟩, HR0⟩, HBr⟩, HBl⟩
  ihave CBr := (Pipeline.launchCred_tallyAt (.reg barS) rgt lft rgt_lft lft_rgt 0 1 c) $$ HBr
  ihave CBl := (Pipeline.launchCred_tallyAt (.reg barS) lft rgt lft_rgt rgt_lft 0 1 c) $$ HBl
  ihave CR0 := (Pipeline.launchCred_tallyAt (.dma (semRR (sj 0))) rgt lft rgt_lft lft_rgt 0 N c) $$ HR0
  ihave CL0 := (Pipeline.launchCred_tallyAt (.dma (semLR (sj 0))) lft rgt lft_rgt rgt_lft 0 N c) $$ HL0
  ihave CR1 := (Pipeline.launchCred_tallyAt (.dma (semRR (sj 1))) rgt lft rgt_lft lft_rgt 1 N c) $$ HR1
  ihave CL1 := (Pipeline.launchCred_tallyAt (.dma (semLR (sj 1))) lft rgt lft_rgt rgt_lft 1 N c) $$ HL1
  ihave CR2 := (Pipeline.launchCred_tallyAt (.dma (semRR (sj 2))) rgt lft rgt_lft lft_rgt 2 N c) $$ HR2
  ihave CL2 := (Pipeline.launchCred_tallyAt (.dma (semLR (sj 2))) lft rgt lft_rgt rgt_lft 2 N c) $$ HL2
  ihave CR3 := (Pipeline.launchCred_tallyAt (.dma (semRR (sj 3))) rgt lft rgt_lft lft_rgt 3 N c) $$ HR3
  ihave CL3 := (Pipeline.launchCred_tallyAt (.dma (semLR (sj 3))) lft rgt lft_rgt rgt_lft 3 N c) $$ HL3
  ihave CR4 := (Pipeline.launchCred_tallyAt (.dma (semRR (sj 4))) rgt lft rgt_lft lft_rgt 4 N c) $$ HR4
  ihave CL4 := (Pipeline.launchCred_tallyAt (.dma (semLR (sj 4))) lft rgt lft_rgt rgt_lft 4 N c) $$ HL4
  ihave CR5 := (Pipeline.launchCred_tallyAt (.dma (semRR (sj 5))) rgt lft rgt_lft lft_rgt 5 N c) $$ HR5
  ihave CL5 := (Pipeline.launchCred_tallyAt (.dma (semLR (sj 5))) lft rgt lft_rgt rgt_lft 5 N c) $$ HL5
  unfold creds stepCred
  isplitl [CBr CBl]
  · iapply (show iprop(cred (tallyAt (cBar c) 0 1) ∗ cred (tallyAt (cBar c) 0 1)) ⊢ (cred (tallyAt (cBar c) 0 2) : sProp 𝕄) from by
      rw [show (tallyAt (cBar c) 0 2 : CellTallies nD τ sig ℕ) = tallyAt (cBar c) 0 1 + tallyAt (cBar c) 0 1 from (tallyAt_add (cBar c) 0 1 1).symm]
      exact (cred_add _ _).2)
    isplitl [CBr] <;> iassumption
  isplitl [CR0 CL0]; · isplitl [CR0] <;> iassumption
  isplitl [CR1 CL1]; · isplitl [CR1] <;> iassumption
  isplitl [CR2 CL2]; · isplitl [CR2] <;> iassumption
  isplitl [CR3 CL3]; · isplitl [CR3] <;> iassumption
  isplitl [CR4 CL4]; · isplitl [CR4] <;> iassumption
  isplitl [CR5] <;> iassumption

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · iframe # ∗
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  iframe # ∗

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨Hr, Hz⟩
  iframe # ∗

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in

/-- The program runs on all thirty-two devices once every device's body obligation is proved. -/
theorem run_main (hbody : ∀ c : Dev nD, BodyObligation (dats (F := F) m 0 c) (defs₀ (F := F)) 𝒱₀ 0 Set.univ) (ρ : Dev nD → PrngReg) :
    θ_run defs (onTc (τ := τ) (main (F := F))) ⟨m, fun _ => 0, ρ⟩ (QC m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main' depends on axioms: [propext, Classical.choice, Quot.sound] -/
#guard_msgs in #print axioms run_main

end Cert.KernelIdeal.AR

end
-- ==== Proof.FrameRun.lean ====
/- After the run the argument array is as launched and the result array holds what the body left in it. -/
import proofs.«900731_g7700000000000732_dist_ar_v7x_xyz2x4x4_z_m1024_n512_bf16_1_alg».proof.Proof.Launch

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem finalA_in (c : Dev nD) : finalA m c (0 : Fin 2) = m ((c : Thread nD τ).loc main_arg0) :=
  (dats (F := F) m 0 c).arrAt_in (0 : Fin 2) rfl _

theorem xstg_eq (c : Dev nD) : xstg m c = m ((c : Thread nD τ).loc main_arg0) := by
  unfold xstg
  exact Memref.read_access_unit_zero (Elt F) main_arg0 (by funext a; fin_cases a <;> rfl) _ _

theorem flushed_out (c : Dev nD) : (dats m 0 c).flushed (1 : Fin 2) t₀ = O3 m c := by
  dsimp only [dats]
  generalize O3 m c = X
  rfl

theorem finalA_out (c : Dev nD) : finalA m c (1 : Fin 2) = O3 m c := by
  unfold finalA
  rw [show cfg0.N = (t₀ : Fin cfg0.N).val + 1 from rfl, (dats m 0 c).arrAt_succ (1 : Fin 2) t₀]
  rw [flush0_1 t₀, if_pos rfl]
  refine Eq.trans ?_ (flushed_out m c)
  exact Memref.write_access_unit_zero_univ (Elt F) main_v1 (by funext a; fin_cases a <;> rfl) _ _ _

theorem run_frame (hbody : ∀ c : Dev nD, BodyObligation (dats (F := F) m 0 c) (defs₀ (F := F)) 𝒱₀ 0 Set.univ) (ρ : Dev nD → PrngReg) :
    θ_run defs (onTc (τ := τ) (main (F := F))) ⟨m, fun _ => 0, ρ⟩ (fun r => ∀ c : Dev nD,
      r.2.mem ((c : Thread nD τ).loc main_v1) = O3 m c
      ∧ r.2.mem ((c : Thread nD τ).loc main_arg0) = m ((c : Thread nD τ).loc main_arg0)) :=
  (θ_run defs _ _).mono (fun _ h c => ⟨(h c (1 : Fin 2)).trans (finalA_out m c),
      (h c (0 : Fin 2)).trans (finalA_in m c)⟩) (run_main m hbody ρ)

end Cert.KernelIdeal.AR

end
-- ==== Proof.RemoteOps.lean ====
/- The two handshake signals, the two transfers of step t and the four waits of step t, at a symbolic step t < 6. -/
import proofs.«900731_g7700000000000732_dist_ar_v7x_xyz2x4x4_z_m1024_n512_bf16_1_alg».proof.Proof.Atoms
import proofs.«900731_g7700000000000732_dist_ar_v7x_xyz2x4x4_z_m1024_n512_bf16_1_alg».proof.Proof.SchedTables
import proofs.«900731_g7700000000000732_dist_ar_v7x_xyz2x4x4_z_m1024_n512_bf16_1_alg».proof.Proof.Levels

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

def slotE (M : Memref sig .tc .vmem S12x128x512 .bf16) (c : Dev nD) (k : ℕ) (hk : k < 12) : sProp 𝕄 := iprop(∃ f, slotPts M c k hk f)

def stored (M : Memref sig .tc .vmem S12x128x512 .bf16) (c : Dev nD) (t : ℕ) (h : t < 6) (v : FVec F S1x128x512 .bf16) : sProp 𝕄 :=
  iprop(∃ f : Buf (Elt F) ((slotOf M (2 * t) (ev12 h)).view.loc (c : Thread nD τ)),
    slotPts M c (2 * t) (ev12 h) ((M.access (rectS (2 * t) (ev12 h))).write (Elt F) f v Finset.univ))

def oddSlots (M : Memref sig .tc .vmem S12x128x512 .bf16) (c : Dev nD) : sProp 𝕄 :=
  iprop(slotE M c 1 (by decide) ∗ slotE M c 3 (by decide) ∗ slotE M c 5 (by decide) ∗ slotE M c 7 (by decide) ∗ slotE M c 9 (by decide) ∗ slotE M c 11 (by decide))

variable (K : Dev nD × Fin 13 → ℕ) (c : Dev nD)
variable {α : Type} {Q : α → sProp (MT nD τ sig ℕ (Elt F) ℕ UU ℕ)} {k : PUnit → Prog (TpuEff nD τ sig (Elt F) Λ₀ .tc) α}

theorem rd_lt {t : ℕ} (h : t < 6) : rd t < 2 := by show t / 3 < 2; omega

theorem owed_R (t : ℕ) (h : t < 6) : owedFrom c (2 + 2 * t) = owedFrom c (2 + 2 * t + 1) + tallyAt (cRR (rgt c) (sj t)) t N := by
  have ht : t = 0 ∨ t = 1 ∨ t = 2 ∨ t = 3 ∨ t = 4 ∨ t = 5 := by omega
  rcases ht with rfl | rfl | rfl | rfl | rfl | rfl <;> rfl
theorem owed_L (t : ℕ) (h : t < 6) : owedFrom c (2 + 2 * t + 1) = owedFrom c (2 + 2 * t + 2) + tallyAt (cLR (lft c) (sj t)) t N := by
  have ht : t = 0 ∨ t = 1 ∨ t = 2 ∨ t = 3 ∨ t = 4 ∨ t = 5 := by omega
  rcases ht with rfl | rfl | rfl | rfl | rfl | rfl <;> rfl

theorem sigL (d : Dev nD) (hd : d = lft c) :
    iprop(records m K ∗ dutyTok ER (cBar (lft c)) 0 true ∗ oddSlots rM c ∗ owesE c 0)
      ⊢ iprop((owesE c 1 -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  subst hd
  have hI : records m K ⊢ cellInv ER (ringRd m) (K (lft c, iBar)) (cBar (lft c)) := inv_at m K (lft c, iBar)
  have hR : records m K ⊢ reached ER (cBar (lft c)) 0 := reached0_at m K (lft c, iBar)
  unfold owesE oddSlots slotE
  iintro ⟨#Hrec, Htok, Hodd, ⟨%W, HO⟩⟩ Hk
  iapply (Rounds.wp_signal 𝒱₀ ER (ringRd m) (c : Thread nD τ) none (dst := (lft c : Thread nD τ)) (κ := K (lft c, iBar))
      (d := true) (by rw [duties_bar]; exact Finset.mem_univ _) (amount_bar m (lft c) 0 true) 0 (owedFrom c 1) (owedFrom_0 c) (W := W))
    $$ [HO Htok Hodd]
  · isplitr; · iapply hI; iexact Hrec
    isplitl [HO]; · iexact HO
    isplitl [Htok]; · iexact Htok
    isplitl [Hodd]
    · rw [payload_bar_true]; unfold barPayT; rw [rgt_lft]; iexact Hodd
    · iapply hR; iexact Hrec
  iintro HO
  iapply Hk
  iexists _; iexact HO

theorem sigR (d : Dev nD) (hd : d = rgt c) :
    iprop(records m K ∗ dutyTok ER (cBar (rgt c)) 0 false ∗ oddSlots lM c ∗ owesE c 1)
      ⊢ iprop((owesE c 2 -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  subst hd
  have hI : records m K ⊢ cellInv ER (ringRd m) (K (rgt c, iBar)) (cBar (rgt c)) := inv_at m K (rgt c, iBar)
  have hR : records m K ⊢ reached ER (cBar (rgt c)) 0 := reached0_at m K (rgt c, iBar)
  unfold owesE oddSlots slotE
  iintro ⟨#Hrec, Htok, Hodd, ⟨%W, HO⟩⟩ Hk
  iapply (Rounds.wp_signal 𝒱₀ ER (ringRd m) (c : Thread nD τ) none (dst := (rgt c : Thread nD τ)) (κ := K (rgt c, iBar))
      (d := false) (by rw [duties_bar]; exact Finset.mem_univ _) (amount_bar m (rgt c) 0 false) 0 (owedFrom c 2) (owedFrom_1 c) (W := W))
    $$ [HO Htok Hodd]
  · isplitr; · iapply hI; iexact Hrec
    isplitl [HO]; · iexact HO
    isplitl [Htok]; · iexact Htok
    isplitl [Hodd]
    · rw [payload_bar_false]; unfold barPayF; rw [lft_rgt]; iexact Hodd
    · iapply hR; iexact Hrec
  iintro HO
  iapply Hk
  iexists _; iexact HO

theorem waitBar :
    iprop(records m K ∗ levAts L lv ∗ cred (tallyAt (cBar c) 0 2) ∗ atPos ER (cBar c) 0 ∅ 0 ∗ owesE c 2)
      ⊢ iprop(((owesE c 2 ∗ atPos ER (cBar c) 1 ∅ 0 ∗ oddSlots rM (rgt c) ∗ oddSlots lM (lft c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  have hI : records m K ⊢ cellInv ER (ringRd m) (K (c, iBar)) (cBar c) := inv_at m K (c, iBar)
  unfold owesE oddSlots slotE
  iintro ⟨#Hrec, #Hlev, Hc, Hat, ⟨%W, HO⟩⟩ Hk
  iapply (Rounds.wp_wait_rest_token 𝒱₀ ER (ringRd m) (c : Thread nD τ) none (κ := K (c, iBar))
      (wpE_semWait_eq 𝒱₀ (c : Thread nD τ) none Set.univ) (Set.mem_univ _) 0 (O := owedFrom c 2) (W := W) (R := 0) (m := 0) (T := ∅)
      (by rw [expect_bar])) $$ [Hc HO Hat]
  · isplitr; · iapply hI; iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPayF barPayT
  icases Hp with ⟨HF, HT⟩
  iapply Hk
  isplitl [HO]; · iexists _; iexact HO
  iframe # ∗

theorem enqR_core (t : ℕ) (h : t < 6)
    {hsc : (slotOf rM (2 * t + 1) (od12 h) : Memref sig (Dev.tc (rgt c) : Thread nD τ).2.kind .vmem S128x512 .bf16).view.ref.isScScratch = false}
    {hsrc : (slotOf rM (2 * t) (ev12 h)).view.WordExact} {hdst : (slotOf rM (2 * t + 1) (od12 h)).view.WordExact}
    {hsem : DmaTarget.Typed .vmem (.dma (semRR (sj t))) (.remote (Dev.tc (rgt c) : Thread nD τ) (slotOf rM (2 * t + 1) (od12 h)) (.dma (semRS (sj t))) hsc)}
    (f : Buf (Elt F) ((slotOf rM (2 * t) (ev12 h)).view.loc (c : Thread nD τ)))
    (fd : Buf (Elt F) ((slotOf rM (2 * t + 1) (od12 h)).view.loc (rgt c : Thread nD τ))) (W : Waits sig ℕ) :
    iprop(cellInv ER (ringRd m) (K (c, iRS (sj t))) (cRS c (sj t)) ∗ cellInv ER (ringRd m) (K (rgt c, iRR (sj t))) (cRR (rgt c) (sj t))
        ∗ ((slotOf rM (2 * t) (ev12 h)).view.loc (c : Thread nD τ) ↦[(slotOf rM (2 * t) (ev12 h)).view.set]{fullShare}
            ((rM.access (rectS (2 * t) (ev12 h))).write (Elt F) f (rsv m t c) Finset.univ))
        ∗ (((slotOf rM (2 * t + 1) (od12 h)).view.loc (rgt c : Thread nD τ) ↦[(slotOf rM (2 * t + 1) (od12 h)).view.set]{fullShare} fd) ∗ fbR (rgt c) t)
        ∗ owes (c : Thread nD τ) (owedFrom c (2 + 2 * t)) W
        ∗ dutyTok ER (cRS c (sj t)) (rd t) false ∗ reached ER (cRS c (sj t)) (rd t)
        ∗ dutyTok ER (cRR (rgt c) (sj t)) (rd t) false ∗ reached ER (cRR (rgt c) (sj t)) (rd t))
      ⊢ iprop(((cred (tallyAt (cRS c (sj t)) t N) ∗ owes (c : Thread nD τ) (owedFrom c (2 + 2 * t + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf rM (2 * t) (ev12 h)) (.remote (Dev.tc (rgt c) : Thread nD τ) (slotOf rM (2 * t + 1) (od12 h)) (.dma (semRS (sj t))) hsc)
                (.dma (semRR (sj t))) hsrc hdst hsem) k) Q) := by
  have hNN : (slotOf rM (2 * t + 1) (od12 h)).view.amount (.dma (semRR (sj t))) = N := rfl
  have hp1 : ((slotOf rM (2 * t) (ev12 h)).view.loc (c : Thread nD τ) ↦[(slotOf rM (2 * t) (ev12 h)).view.set]{fullShare}
          ((rM.access (rectS (2 * t) (ev12 h))).write (Elt F) f (rsv m t c) Finset.univ) : sProp 𝕄)
        ⊢ (ringRd m).payload (cRS c (sj t)) (rd t) false := by
    rw [payload_RS, step_idx t h, sendPay_lt rM c t h]; unfold slotPts; iintro H; iexists _; iexact H
  have hp2 : iprop(((slotOf rM (2 * t + 1) (od12 h)).view.loc (rgt c : Thread nD τ) ↦[(slotOf rM (2 * t + 1) (od12 h)).view.set]{fullShare}
          ((slotOf rM (2 * t + 1) (od12 h)).view.write (Elt F) fd
            ((slotOf rM (2 * t) (ev12 h)).view.read (Elt F) ((rM.access (rectS (2 * t) (ev12 h))).write (Elt F) f (rsv m t c) Finset.univ)) Finset.univ) : sProp 𝕄)
        ∗ fbR (rgt c) t) ⊢ (ringRd m).payload (cRR (rgt c) (sj t)) (rd t) false := by
    rw [payload_RR, step_idx t h, recvPayR_lt m (rgt c) t h, lft_rgt]; unfold landed slotPts
    iintro ⟨H, HF⟩; isplitl [H]
    · iexists fd, f; iexact H
    · iexact HF
  exact Rounds.wp_send_pointsTo_with 𝒱₀ ER (ringRd m) (c : Thread nD τ) none (κ₁ := K (c, iRS (sj t))) (κ₂ := K (rgt c, iRR (sj t)))
    (r₁ := rd t) (r₂ := rd t) (d₁ := false) (d₂ := false) (fd := fd) (F := fbR (rgt c) t)
    (by rw [duties_RS m c (sj t) (rd t) (rd_lt h)]; exact Finset.mem_singleton_self _)
    (by rw [duties_RR m (rgt c) (sj t) (rd t) (rd_lt h)]; exact Finset.mem_singleton_self _)
    t t N hNN (amount_RS m c (sj t) (rd t) false) (amount_RR m (rgt c) (sj t) (rd t) false)
    (owedFrom c (2 + 2 * t + 1)) (owed_R c t h) (W := W) hp1 hp2

theorem enqR (t : ℕ) (h : t < 6) (d : Dev nD) (hd : d = rgt c)
    {hsc : (slotOf rM (2 * t + 1) (od12 h) : Memref sig (Dev.tc d : Thread nD τ).2.kind .vmem S128x512 .bf16).view.ref.isScScratch = false}
    {hsrc : (slotOf rM (2 * t) (ev12 h)).view.WordExact} {hdst : (slotOf rM (2 * t + 1) (od12 h)).view.WordExact}
    {hsem : DmaTarget.Typed .vmem (.dma (semRR (sj t))) (.remote (Dev.tc d : Thread nD τ) (slotOf rM (2 * t + 1) (od12 h)) (.dma (semRS (sj t))) hsc)} :
    iprop(records m K ∗ reached ER (cRS c (sj t)) (rd t) ∗ reached ER (cRR (rgt c) (sj t)) (rd t) ∗ fbR (rgt c) t
        ∗ stored rM c t h (rsv m t c) ∗ slotE rM (rgt c) (2 * t + 1) (od12 h)
        ∗ dutyTok ER (cRS c (sj t)) (rd t) false ∗ dutyTok ER (cRR (rgt c) (sj t)) (rd t) false
        ∗ owesE c (2 + 2 * t))
      ⊢ iprop(((cred (tallyAt (cRS c (sj t)) t N) ∗ owesE c (2 + 2 * t + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf rM (2 * t) (ev12 h)) (.remote (Dev.tc d : Thread nD τ) (slotOf rM (2 * t + 1) (od12 h)) (.dma (semRS (sj t))) hsc)
                (.dma (semRR (sj t))) hsrc hdst hsem) k) Q) := by
  subst hd
  have hI1 : records m K ⊢ cellInv ER (ringRd m) (K (c, iRS (sj t))) (cRS c (sj t)) := by
    have := inv_at m K (c, iRS (sj t)); rwa [kcell_RS] at this
  have hI2 : records m K ⊢ cellInv ER (ringRd m) (K (rgt c, iRR (sj t))) (cRR (rgt c) (sj t)) := by
    have := inv_at m K (rgt c, iRR (sj t)); rwa [kcell_RR] at this
  unfold owesE stored slotE slotPts
  iintro ⟨#Hrec, Hr1, Hr2, Hfb, ⟨%f, Hsrc⟩, ⟨%fd, Hdst⟩, Ht1, Ht2, ⟨%W, HO⟩⟩ Hk
  iapply (enqR_core m K c t h f fd W) $$ [Hr1 Hr2 Hfb Hsrc Hdst Ht1 Ht2 HO]
  · isplitr; · iapply hI1; iexact Hrec
    isplitr; · iapply hI2; iexact Hrec
    isplitl [Hsrc]; · iexact Hsrc
    isplitl [Hdst Hfb]
    · iframe # ∗
    iframe # ∗
  iintro ⟨Hc, HO⟩
  iapply Hk
  isplitl [Hc]; · iexact Hc
  iexists _; iexact HO

theorem enqL_core (t : ℕ) (h : t < 6)
    {hsc : (slotOf lM (2 * t + 1) (od12 h) : Memref sig (Dev.tc (lft c) : Thread nD τ).2.kind .vmem S128x512 .bf16).view.ref.isScScratch = false}
    {hsrc : (slotOf lM (2 * t) (ev12 h)).view.WordExact} {hdst : (slotOf lM (2 * t + 1) (od12 h)).view.WordExact}
    {hsem : DmaTarget.Typed .vmem (.dma (semLR (sj t))) (.remote (Dev.tc (lft c) : Thread nD τ) (slotOf lM (2 * t + 1) (od12 h)) (.dma (semLS (sj t))) hsc)}
    (f : Buf (Elt F) ((slotOf lM (2 * t) (ev12 h)).view.loc (c : Thread nD τ)))
    (fd : Buf (Elt F) ((slotOf lM (2 * t + 1) (od12 h)).view.loc (lft c : Thread nD τ))) (W : Waits sig ℕ) :
    iprop(cellInv ER (ringRd m) (K (c, iLS (sj t))) (cLS c (sj t)) ∗ cellInv ER (ringRd m) (K (lft c, iLR (sj t))) (cLR (lft c) (sj t))
        ∗ ((slotOf lM (2 * t) (ev12 h)).view.loc (c : Thread nD τ) ↦[(slotOf lM (2 * t) (ev12 h)).view.set]{fullShare}
            ((lM.access (rectS (2 * t) (ev12 h))).write (Elt F) f (lsv m t c) Finset.univ))
        ∗ (((slotOf lM (2 * t + 1) (od12 h)).view.loc (lft c : Thread nD τ) ↦[(slotOf lM (2 * t + 1) (od12 h)).view.set]{fullShare} fd) ∗ fbL (lft c) t)
        ∗ owes (c : Thread nD τ) (owedFrom c (2 + 2 * t + 1)) W
        ∗ dutyTok ER (cLS c (sj t)) (rd t) false ∗ reached ER (cLS c (sj t)) (rd t)
        ∗ dutyTok ER (cLR (lft c) (sj t)) (rd t) false ∗ reached ER (cLR (lft c) (sj t)) (rd t))
      ⊢ iprop(((cred (tallyAt (cLS c (sj t)) t N) ∗ owes (c : Thread nD τ) (owedFrom c (2 + 2 * t + 2)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf lM (2 * t) (ev12 h)) (.remote (Dev.tc (lft c) : Thread nD τ) (slotOf lM (2 * t + 1) (od12 h)) (.dma (semLS (sj t))) hsc)
                (.dma (semLR (sj t))) hsrc hdst hsem) k) Q) := by
  have hNN : (slotOf lM (2 * t + 1) (od12 h)).view.amount (.dma (semLR (sj t))) = N := rfl
  have hp1 : ((slotOf lM (2 * t) (ev12 h)).view.loc (c : Thread nD τ) ↦[(slotOf lM (2 * t) (ev12 h)).view.set]{fullShare}
          ((lM.access (rectS (2 * t) (ev12 h))).write (Elt F) f (lsv m t c) Finset.univ) : sProp 𝕄)
        ⊢ (ringRd m).payload (cLS c (sj t)) (rd t) false := by
    rw [payload_LS, step_idx t h, sendPay_lt lM c t h]; unfold slotPts; iintro H; iexists _; iexact H
  have hp2 : iprop(((slotOf lM (2 * t + 1) (od12 h)).view.loc (lft c : Thread nD τ) ↦[(slotOf lM (2 * t + 1) (od12 h)).view.set]{fullShare}
          ((slotOf lM (2 * t + 1) (od12 h)).view.write (Elt F) fd
            ((slotOf lM (2 * t) (ev12 h)).view.read (Elt F) ((lM.access (rectS (2 * t) (ev12 h))).write (Elt F) f (lsv m t c) Finset.univ)) Finset.univ) : sProp 𝕄)
        ∗ fbL (lft c) t) ⊢ (ringRd m).payload (cLR (lft c) (sj t)) (rd t) false := by
    rw [payload_LR, step_idx t h, recvPayL_lt m (lft c) t h, rgt_lft]; unfold landed slotPts
    iintro ⟨H, HF⟩; isplitl [H]
    · iexists fd, f; iexact H
    · iexact HF
  exact Rounds.wp_send_pointsTo_with 𝒱₀ ER (ringRd m) (c : Thread nD τ) none (κ₁ := K (c, iLS (sj t))) (κ₂ := K (lft c, iLR (sj t)))
    (r₁ := rd t) (r₂ := rd t) (d₁ := false) (d₂ := false) (fd := fd) (F := fbL (lft c) t)
    (by rw [duties_LS m c (sj t) (rd t) (rd_lt h)]; exact Finset.mem_singleton_self _)
    (by rw [duties_LR m (lft c) (sj t) (rd t) (rd_lt h)]; exact Finset.mem_singleton_self _)
    t t N hNN (amount_LS m c (sj t) (rd t) false) (amount_LR m (lft c) (sj t) (rd t) false)
    (owedFrom c (2 + 2 * t + 2)) (owed_L c t h) (W := W) hp1 hp2

theorem enqL (t : ℕ) (h : t < 6) (d : Dev nD) (hd : d = lft c)
    {hsc : (slotOf lM (2 * t + 1) (od12 h) : Memref sig (Dev.tc d : Thread nD τ).2.kind .vmem S128x512 .bf16).view.ref.isScScratch = false}
    {hsrc : (slotOf lM (2 * t) (ev12 h)).view.WordExact} {hdst : (slotOf lM (2 * t + 1) (od12 h)).view.WordExact}
    {hsem : DmaTarget.Typed .vmem (.dma (semLR (sj t))) (.remote (Dev.tc d : Thread nD τ) (slotOf lM (2 * t + 1) (od12 h)) (.dma (semLS (sj t))) hsc)} :
    iprop(records m K ∗ reached ER (cLS c (sj t)) (rd t) ∗ reached ER (cLR (lft c) (sj t)) (rd t) ∗ fbL (lft c) t
        ∗ stored lM c t h (lsv m t c) ∗ slotE lM (lft c) (2 * t + 1) (od12 h)
        ∗ dutyTok ER (cLS c (sj t)) (rd t) false ∗ dutyTok ER (cLR (lft c) (sj t)) (rd t) false
        ∗ owesE c (2 + 2 * t + 1))
      ⊢ iprop(((cred (tallyAt (cLS c (sj t)) t N) ∗ owesE c (2 + 2 * t + 2)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf lM (2 * t) (ev12 h)) (.remote (Dev.tc d : Thread nD τ) (slotOf lM (2 * t + 1) (od12 h)) (.dma (semLS (sj t))) hsc)
                (.dma (semLR (sj t))) hsrc hdst hsem) k) Q) := by
  subst hd
  have hI1 : records m K ⊢ cellInv ER (ringRd m) (K (c, iLS (sj t))) (cLS c (sj t)) := by
    have := inv_at m K (c, iLS (sj t)); rwa [kcell_LS] at this
  have hI2 : records m K ⊢ cellInv ER (ringRd m) (K (lft c, iLR (sj t))) (cLR (lft c) (sj t)) := by
    have := inv_at m K (lft c, iLR (sj t)); rwa [kcell_LR] at this
  unfold owesE stored slotE slotPts
  iintro ⟨#Hrec, Hr1, Hr2, Hfb, ⟨%f, Hsrc⟩, ⟨%fd, Hdst⟩, Ht1, Ht2, ⟨%W, HO⟩⟩ Hk
  iapply (enqL_core m K c t h f fd W) $$ [Hr1 Hr2 Hfb Hsrc Hdst Ht1 Ht2 HO]
  · isplitr; · iapply hI1; iexact Hrec
    isplitr; · iapply hI2; iexact Hrec
    isplitl [Hsrc]; · iexact Hsrc
    isplitl [Hdst Hfb]
    · iframe # ∗
    iframe # ∗
  iintro ⟨Hc, HO⟩
  iapply Hk
  isplitl [Hc]; · iexact Hc
  iexists _; iexact HO

section Waits
variable {sp' : Space} {s' : Shape} {e' : EltTy} {src : Memref sig .tc sp' s' e'} {κ' : Kind} {dst : Memref sig κ' .vmem S128x512 .bf16}
  {hsrc : src.view.WordExact} {hdst : dst.view.WordExact}

/-- A wait of step t on one of the device's own transfer cells: the round's one duty has landed and hands over its payload P. -/
theorem waitCell (t : ℕ) (h : t < 6) (i : Fin 13) (q : DmaSem sig) (hi : kcell (c, i) = ((c : Thread nD τ), .dma q))
    (hq : (ringIdx (.dma q : SemLoc sig)).isSome) {P : sProp 𝕄} (hexp : (ringRd (F := F) m).expect ((c : Thread nD τ), .dma q) (rd t) = N)
    (hrest : bigSep ((ringRd (F := F) m).duties ((c : Thread nD τ), .dma q) (rd t) \ ∅) (fun d => (ringRd (F := F) m).payload ((c : Thread nD τ), .dma q) (rd t) d) = P)
    (hN : dst.view.dmaCredit = N) :
    iprop(records m K ∗ levAts L lv ∗ cred (tallyAt ((c : Thread nD τ), .dma q) t N) ∗ atPos ER ((c : Thread nD τ), .dma q) (rd t) ∅ 0 ∗ owesE c (2 + 2 * t + 2))
      ⊢ iprop(((owesE c (2 + 2 * t + 2) ∗ atPos ER ((c : Thread nD τ), .dma q) (rd t + 1) ∅ 0 ∗ reached ER ((c : Thread nD τ), .dma q) (rd t + 1) ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hI : records m K ⊢ cellInv ER (ringRd m) (K (c, i)) ((c : Thread nD τ), .dma q) := by
    have := inv_at m K (c, i); rwa [hi] at this
  rw [← hN]
  unfold owesE
  iintro ⟨#Hrec, #Hlev, Hc, Hat, ⟨%W, HO⟩⟩ Hk
  iapply (Rounds.wp_wait_rest_token 𝒱₀ ER (ringRd m) (c : Thread nD τ) none (κ := K (c, i))
      (wpE_waitDma2_eq 𝒱₀ (c : Thread nD τ) none Set.univ) (Set.mem_univ _) t (O := owedFrom c (2 + 2 * t + 2)) (W := W) (R := rd t) (m := 0) (T := ∅)
      (by rw [Nat.zero_add, hexp]; exact hN)) $$ [Hc HO Hat]
  · isplitr; · iapply hI; iexact Hrec
    isplitl [Hc]; · iexact Hc
    isplitl [HO]; · iexact HO
    isplitr; · iapply (mayWait_step c t h (.dma q) hq); iexact Hlev
    iexact Hat
  iintro ⟨HO, Hat, Hr, Hpay⟩
  ihave Hp := (Entails.of_eq hrest) $$ Hpay
  iapply Hk
  isplitl [HO]; · iexists _; iexact HO
  iframe # ∗

theorem waitSR (t : ℕ) (h : t < 6) (hN : dst.view.dmaCredit = N) :
    iprop(records m K ∗ levAts L lv ∗ cred (tallyAt (cRS c (sj t)) t N) ∗ atPos ER (cRS c (sj t)) (rd t) ∅ 0 ∗ owesE c (2 + 2 * t + 2))
      ⊢ iprop(((owesE c (2 + 2 * t + 2) ∗ atPos ER (cRS c (sj t)) (rd t + 1) ∅ 0 ∗ reached ER (cRS c (sj t)) (rd t + 1) ∗ slotE rM c (2 * t) (ev12 h))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semRS (sj t)) src dst hsrc hdst) k) Q) := by
  have hrest := (rest_RS m c (sj t) (rd t) (rd_lt h)).trans (by rw [step_idx t h, sendPay_lt rM c t h])
  unfold slotE
  exact waitCell m K c t h (iRS (sj t)) (semRS (sj t)) (kcell_RS c (sj t)) (by rw [ringIdx_RS]; rfl) (expect_RS m c (sj t) (rd t) (rd_lt h)) hrest hN

theorem waitRR (t : ℕ) (h : t < 6) (hN : dst.view.dmaCredit = N) :
    iprop(records m K ∗ levAts L lv ∗ cred (tallyAt (cRR c (sj t)) t N) ∗ atPos ER (cRR c (sj t)) (rd t) ∅ 0 ∗ owesE c (2 + 2 * t + 2))
      ⊢ iprop(((owesE c (2 + 2 * t + 2) ∗ atPos ER (cRR c (sj t)) (rd t + 1) ∅ 0 ∗ reached ER (cRR c (sj t)) (rd t + 1)
              ∗ landed rM c (lft c) t h (rsv m t (lft c)) ∗ fbR c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semRR (sj t)) src dst hsrc hdst) k) Q) := by
  have hrest := (rest_RR m c (sj t) (rd t) (rd_lt h)).trans (by rw [step_idx t h, recvPayR_lt m c t h])
  exact waitCell m K c t h (iRR (sj t)) (semRR (sj t)) (kcell_RR c (sj t)) (by rw [ringIdx_RR]; rfl) (expect_RR m c (sj t) (rd t) (rd_lt h)) hrest hN

theorem waitSL (t : ℕ) (h : t < 6) (hN : dst.view.dmaCredit = N) :
    iprop(records m K ∗ levAts L lv ∗ cred (tallyAt (cLS c (sj t)) t N) ∗ atPos ER (cLS c (sj t)) (rd t) ∅ 0 ∗ owesE c (2 + 2 * t + 2))
      ⊢ iprop(((owesE c (2 + 2 * t + 2) ∗ atPos ER (cLS c (sj t)) (rd t + 1) ∅ 0 ∗ reached ER (cLS c (sj t)) (rd t + 1) ∗ slotE lM c (2 * t) (ev12 h))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semLS (sj t)) src dst hsrc hdst) k) Q) := by
  have hrest := (rest_LS m c (sj t) (rd t) (rd_lt h)).trans (by rw [step_idx t h, sendPay_lt lM c t h])
  unfold slotE
  exact waitCell m K c t h (iLS (sj t)) (semLS (sj t)) (kcell_LS c (sj t)) (by rw [ringIdx_LS]; rfl) (expect_LS m c (sj t) (rd t) (rd_lt h)) hrest hN

theorem waitRL (t : ℕ) (h : t < 6) (hN : dst.view.dmaCredit = N) :
    iprop(records m K ∗ levAts L lv ∗ cred (tallyAt (cLR c (sj t)) t N) ∗ atPos ER (cLR c (sj t)) (rd t) ∅ 0 ∗ owesE c (2 + 2 * t + 2))
      ⊢ iprop(((owesE c (2 + 2 * t + 2) ∗ atPos ER (cLR c (sj t)) (rd t + 1) ∅ 0 ∗ reached ER (cLR c (sj t)) (rd t + 1)
              ∗ landed lM c (rgt c) t h (lsv m t (rgt c)) ∗ fbL c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semLR (sj t)) src dst hsrc hdst) k) Q) := by
  have hrest := (rest_LR m c (sj t) (rd t) (rd_lt h)).trans (by rw [step_idx t h, recvPayL_lt m c t h])
  exact waitCell m K c t h (iLR (sj t)) (semLR (sj t)) (kcell_LR c (sj t)) (by rw [ringIdx_LR]; rfl) (expect_LR m c (sj t) (rd t) (rd_lt h)) hrest hN

end Waits

theorem closeOwn :
    iprop(records m K ∗ bigSep Finset.univ fun k : Fin 12 => atPos ER ((c : Thread nD τ), osem k) 2 ∅ 0)
      ⊢ |={Set.univ}=> (bigSep Finset.univ fun k : Fin 12 => semVal ((c : Thread nD τ), osem k) 0 : sProp 𝕄) := by
  have hone : ∀ k : Fin 12, iprop(records m K ∗ atPos ER ((c : Thread nD τ), osem k) 2 ∅ 0)
      ⊢ (iprop(|={Set.univ}=> semVal ((c : Thread nD τ), osem k) 0) : sProp 𝕄) := fun k => by
    obtain ⟨q, hq⟩ : ∃ q : DmaSem sig, osem k = .dma q := by fin_cases k <;> exact ⟨_, rfl⟩
    have hI := inv_at m K (c, ⟨k.val + 1, by omega⟩)
    iintro ⟨Hrec, Hat⟩
    iapply (Rounds.cell_close ER (ringRd m) (Set.mem_univ (K (c, ⟨k.val + 1, by omega⟩))) (fun h => h) (R := 2)
      (fun r hr => by show (ringRd m).duties ((c : Thread nD τ), osem k) r = ∅; rw [hq]; exact duties_dma_later m c r q hr))
    isplitl [Hrec]; · iapply hI; iexact Hrec
    iexact Hat
  refine (sep_mono_left (bigSep_of_persistent (Finset.univ : Finset (Fin 12)) (records m K))).trans ?_
  rw [← bigSep_sep']
  exact (bigSep_mono fun k _ => hone k).trans (bigSep_fupd _ _)

end Cert.KernelIdeal.AR

end
-- ==== Proof.ViewLemmas.lean ====
/- Reading and writing one slot of a transfer buffer, and a whole buffer. -/
import proofs.«900731_g7700000000000732_dist_ar_v7x_xyz2x4x4_z_m1024_n512_bf16_1_alg».proof.Proof.Base

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem slotOf_set (M : Memref sig .tc .vmem S12x128x512 .bf16) (k : ℕ) (hk : k < 12) :
    (slotOf M k hk).view.set = (rectS k hk).set.map M.view.emb := by
  show ((M.view.slice (rectS k hk)).reshape S128x512 _).set = _
  rw [View.set_reshape, View.set_slice]

theorem slot_load_sub (M : Memref sig .tc .vmem S12x128x512 .bf16) (k : ℕ) (hk : k < 12) :
    M.view.setOn (rectS k hk).toLoadRect.set ⊆ (slotOf M k hk).view.set := by
  rw [slotOf_set]; exact Finset.Subset.refl _

theorem slot_store_sub (M : Memref sig .tc .vmem S12x128x512 .bf16) (k : ℕ) (hk : k < 12) :
    (M.access (rectS k hk)).setOn Finset.univ ⊆ (slotOf M k hk).view.set := by
  rw [slotOf_set, View.setOn_univ, View.set_slice]

theorem read_write_reshape_univ {κ : Kind} {sp : Space} {s s' : Shape} {e : EltTy} {Val : EltTy → Type}
    (v : View sig κ sp s e) (h : s'.numel = s.numel) (f : v.ty.Contents Val) (u : s'.Idx → Val e) (x : s.Idx) :
    v.read Val ((v.reshape s' h).write Val f u Finset.univ) x = u ((Shape.reshapeEquiv h).symm x) := by
  have hx : v.emb x = (v.reshape s' h).emb ((Shape.reshapeEquiv h).symm x) := by
    show v.emb x = v.emb (Shape.reshapeEquiv h ((Shape.reshapeEquiv h).symm x))
    rw [Equiv.apply_symm_apply]
  rw [View.read_apply, hx, View.write_emb_of_mem _ _ (Finset.mem_univ _), cast_cast, cast_eq]

theorem readAt_landed (M : Memref sig .tc .vmem S12x128x512 .bf16) (k k' : ℕ) (hk : k < 12) (hk' : k' < 12)
    (fd f : M.view.ty.Contents (Elt F)) (w : FVec F S1x128x512 .bf16) :
    M.view.readAt (Elt F) (rectS k hk).toLoadRect
      ((slotOf M k hk).view.write (Elt F) fd
        ((slotOf M k' hk').view.read (Elt F) ((M.access (rectS k' hk')).write (Elt F) f w Finset.univ)) Finset.univ) = w := by
  funext x
  show (M.view.slice (rectS k hk)).read (Elt F)
    (((M.view.slice (rectS k hk)).reshape S128x512 squeezes_S1x128x512_S128x512.numel_eq).write (Elt F) fd _ Finset.univ) x = w x
  rw [read_write_reshape_univ]
  show (M.view.slice (rectS k' hk')).read (Elt F) ((M.view.slice (rectS k' hk')).write (Elt F) f w Finset.univ)
    (Shape.reshapeEquiv squeezes_S1x128x512_S128x512.numel_eq ((Shape.reshapeEquiv squeezes_S1x128x512_S128x512.numel_eq).symm x)) = w x
  rw [Equiv.apply_symm_apply, View.read_write_of_mem _ _ (Finset.mem_univ _)]

theorem zero2 : (![0, 0] : Fin 2 → Nat) = fun _ => 0 := by
  funext a; fin_cases a <;> rfl

theorem readAt_whole_x (f : (Memref.whole cc0_stg0_0 : Memref sig .tc _ _ _).view.ty.Contents (Elt F)) :
    xM.view.readAt (Elt F) (Rect.unit (s := S1024x512) ![0, 0] S1024x512.size inb_S1024x512_S1024x512_0_0).toLoadRect f = f :=
  Memref.readAt_unit_zero (Elt F) cc0_stg0_0 zero2 inb_S1024x512_S1024x512_0_0 f

theorem readAt_whole_a (f : (Memref.whole cc0_scratch2 : Memref sig .tc _ _ _).view.ty.Contents (Elt F)) :
    aM.view.readAt (Elt F) (Rect.unit (s := S1024x512) ![0, 0] S1024x512.size inb_S1024x512_S1024x512_0_0).toLoadRect f = f :=
  Memref.readAt_unit_zero (Elt F) cc0_scratch2 zero2 inb_S1024x512_S1024x512_0_0 f

theorem write_whole_o (f w : (Memref.whole cc0_stg1_0 : Memref sig .tc _ _ _).view.ty.Contents (Elt F)) :
    (oM.access (Rect.unit (s := S1024x512) ![0, 0] S1024x512.size inb_S1024x512_S1024x512_0_0)).write (Elt F) f w Finset.univ = w :=
  Memref.write_access_unit_zero_univ (Elt F) cc0_stg1_0 zero2 inb_S1024x512_S1024x512_0_0 f w

theorem write_whole_a (f w : (Memref.whole cc0_scratch2 : Memref sig .tc _ _ _).view.ty.Contents (Elt F)) :
    (aM.access (Rect.unit (s := S1024x512) ![0, 0] S1024x512.size inb_S1024x512_S1024x512_0_0)).write (Elt F) f w Finset.univ = w :=
  Memref.write_access_unit_zero_univ (Elt F) cc0_scratch2 zero2 inb_S1024x512_S1024x512_0_0 f w

end Cert.KernelIdeal.AR

end
-- ==== Proof.BodyDefs.lean ====
/- Shorthands for the three whole buffers of a device. -/
import proofs.«900731_g7700000000000732_dist_ar_v7x_xyz2x4x4_z_m1024_n512_bf16_1_alg».proof.Proof.RemoteOps
import proofs.«900731_g7700000000000732_dist_ar_v7x_xyz2x4x4_z_m1024_n512_bf16_1_alg».proof.Proof.ViewLemmas

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

def xP (c : Dev nD) : sProp 𝕄 := ((c : Thread nD τ).loc cc0_stg0_0) ↦{fullShare} xstg m c
def accP (c : Dev nD) (f : CA (F := F)) : sProp 𝕄 := ((c : Thread nD τ).loc cc0_scratch2) ↦{fullShare} f
def outP (c : Dev nD) (f : CO (F := F)) : sProp 𝕄 := ((c : Thread nD τ).loc cc0_stg1_0) ↦{fullShare} f

end Cert.KernelIdeal.AR

end
-- ==== Proof.Body03.lean ====
/- Part 3 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem part3_spec (c : Dev nD) (v2 v5 v30 v59 v62 v63 : BitVec 32) (v64 v65 : BitVec 1) (Kt : PUnit → sProp 𝕄) :
    iprop(accP c (A0 m c) ∗ slotE rM c 0 (by decide) ∗ slotE lM c 0 (by decide)
        ∗ ((accP c (A0 m c) ∗ stored rM c 0 (by decide) (rsv m 0 c) ∗ stored lM c 0 (by decide) (lsv m 0 c)) -∗ Kt ⟨⟩))
      ⊢ wp frame (wpE (defs₀ (F := F)) 𝒱₀ (c : Thread nD τ) none) Set.univ
          (k0_part3 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v30 v59 v62 v63 v64 v65) Kt := by
  rw [k0_part3_eq_skeleton]; unfold k0_part3_skel
  simp only [Prog.lift, Prog.bind_op, Prog.bind_ret, Prog.pure_eq_ret]
  unfold accP slotE stored slotPts
  iintro ⟨Hacc, ⟨%fr, Hr⟩, ⟨%fl, Hl⟩, Hk⟩
  have h0 : (0 : ℕ) < 12 := by decide
  iapply (wp_load 𝒱₀ (c : Thread nD τ) none Set.univ (m := aM) (Finset.subset_univ _)) $$ Hacc; iintro Hacc
  iapply (wp_load 𝒱₀ (c : Thread nD τ) none Set.univ (m := rM) (r := (rectS 0 h0).toLoadRect) (S := (slotOf rM 0 h0).view.set)
    (q := fullShare) (f := fr) (slot_load_sub rM 0 h0)) $$ Hr; iintro Hr
  iapply (wp_store 𝒱₀ (c : Thread nD τ) none Set.univ (m := rM) (r := rectS 0 h0) (Mk := Finset.univ) (S := (slotOf rM 0 h0).view.set)
    (f := fr) (slot_store_sub rM 0 h0)) $$ Hr; iintro Hr
  iapply (wp_load 𝒱₀ (c : Thread nD τ) none Set.univ (m := aM) (Finset.subset_univ _)) $$ Hacc; iintro Hacc
  iapply (wp_load 𝒱₀ (c : Thread nD τ) none Set.univ (m := lM) (r := (rectS 0 h0).toLoadRect) (S := (slotOf lM 0 h0).view.set)
    (q := fullShare) (f := fl) (slot_load_sub lM 0 h0)) $$ Hl; iintro Hl
  iapply (wp_store 𝒱₀ (c : Thread nD τ) none Set.univ (m := lM) (r := rectS 0 h0) (Mk := Finset.univ) (S := (slotOf lM 0 h0).view.set)
    (f := fl) (slot_store_sub lM 0 h0)) $$ Hl; iintro Hl
  rw [wp_ret]; imodintro
  iapply Hk
  isplitl [Hacc]; · iexact Hacc
  isplitl [Hr]
  · iexists fr; iexact Hr
  · iexists fl; iexact Hl

end Cert.KernelIdeal.AR

end
-- ==== Proof.BodyS0.lean ====
/- Parts 6 and 7 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

private theorem landed0 (M : Memref sig .tc .vmem S12x128x512 .bf16) (c d : Dev nD) (h : 0 < 6) (h1 : 1 < 12) (h0 : 0 < 12) (v : FVec F S1x128x512 .bf16) :
    (landed M c d 0 h v : sProp 𝕄) = iprop(∃ (fd : Buf (Elt F) ((slotOf M 1 h1).view.loc (c : Thread nD τ)))
      (f : Buf (Elt F) ((slotOf M 0 h0).view.loc (d : Thread nD τ))),
    slotPts M c 1 h1
      ((slotOf M 1 h1).view.write (Elt F) fd
        ((slotOf M 0 h0).view.read (Elt F) ((M.access (rectS 0 h0)).write (Elt F) f v Finset.univ)) Finset.univ)) := rfl

private theorem part6_v188 (c : Dev nD) :
    aM.view.readAt (Elt F) (Rect.unit (s := S1024x512) (k0_off4 c 0#32) S128x512.size (k0_off4_inb c 0)).toLoadRect
      ((aM.access (R3 c 0)).write (Elt F) (A0 m c)
        (k0_pay6 (aM.view.readAt (Elt F) (Rect.unit (s := S1024x512) (k0_off3 c 0#32) S128x512.size (k0_off3_inb c 0)).toLoadRect (A0 m c))
          (rsv m 0 (lft c))) Finset.univ)
      = rdA (R4 c 0) (A0r m c) := rfl

theorem part6_spec (c : Dev nD) (v8 v153 v154 : BitVec 32)
    (Kt : (Σ' (v186 : BitVec 32) (v188 : Vec F S128x512 .f32), FVec F S128x512 .bf16) → sProp 𝕄) :
    iprop(accP c (A0 m c) ∗ landed rM c (lft c) 0 (by decide) (rsv m 0 (lft c)) ∗ landed lM c (rgt c) 0 (by decide) (lsv m 0 (rgt c))
        ∗ (∀ r, ⌜r.2.1 = rdA (R4 c 0) (A0r m c) ∧ r.2.2 = k0_pay7 (lsv m 0 (rgt c))⌝
            -∗ (accP c (A0r m c) ∗ slotE rM c 1 (by decide) ∗ slotE lM c 1 (by decide))
            -∗ Kt r))
      ⊢ wp frame (wpE (defs₀ (F := F)) 𝒱₀ (c : Thread nD τ) none) Set.univ
          (k0_part6 xM (Memref.isWhole_whole _) oM (Memref.isWhole_whole _) rM (Memref.isWhole_whole _) lM (Memref.isWhole_whole _) aM (Memref.isWhole_whole _) cc0_scratch3 cc0_scratch4 cc0_scratch5 cc0_scratch6 c v8 v153 v154) Kt := by
  rw [k0_part6_eq_skeleton]; unfold k0_part6_skel
  simp only [Prog.lift, Prog.bind_op, Prog.bind_ret, Prog.pure_eq_ret]
  have h06 : (0 : ℕ) < 6 := by decide
  have h1 : (1 : ℕ) < 12 := by decide
  have h0 : (0 : ℕ) < 12 := by decide
  rw [landed0 rM c (lft c) h06 h1 h0, landed0 lM c (rgt c) h06 h1 h0]
  unfold accP slotE slotPts
  iintro ⟨Hacc, ⟨%fdr, %fr, Hr⟩, ⟨%fdl, %fl, Hl⟩, Hk⟩
  have er := readAt_landed rM 1 0 h1 h0 fdr fr (rsv m 0 (lft c))
  have el := readAt_landed lM 1 0 h1 h0 fdl fl (lsv m 0 (rgt c))
  iapply (wp_load 𝒱₀ (c : Thread nD τ) none Set.univ (m := aM) (Finset.subset_univ _)) $$ Hacc; iintro Hacc
  iapply (wp_load 𝒱₀ (c : Thread nD τ) none Set.univ (m := rM) (r := (rectS 1 h1).toLoadRect) (S := (slotOf rM 1 h1).view.set)
    (q := fullShare) (slot_load_sub rM 1 h1)) $$ Hr; iintro Hr
  iapply (wp_load 𝒱₀ (c : Thread nD τ) none Set.univ (m := aM) (Finset.subset_univ _)) $$ Hacc; iintro Hacc
  iapply (wp_store 𝒱₀ (c : Thread nD τ) none Set.univ (m := aM) (r := R3 c 0) (Mk := Finset.univ) (Finset.subset_univ _)) $$ Hacc; iintro Hacc
  iapply (wp_load 𝒱₀ (c : Thread nD τ) none Set.univ (m := aM) (Finset.subset_univ _)) $$ Hacc; iintro Hacc
  iapply (wp_load 𝒱₀ (c : Thread nD τ) none Set.univ (m := lM) (r := (rectS 1 h1).toLoadRect) (S := (slotOf lM 1 h1).view.set)
    (q := fullShare) (slot_load_sub lM 1 h1)) $$ Hl; iintro Hl
  rw [wp_ret]; imodintro
  rw [er, el]
  iapply Hk
  · ipureintro
    refine ⟨?_, rfl⟩
    dsimp only
    exact part6_v188 m c
  isplitl [Hacc]; · iexact Hacc
  isplitl [Hr]
  · iexists _; iexact Hr
  · iexists _; iexact Hl

theorem part7_spec (c : Dev nD) (v8 v186 : BitVec 32) (v188 : Vec F S128x512 .f32) (v190 : FVec F S128x512 .bf16)
    (hv188 : v188 = rdA (R4 c 0) (A0r m c)) (hv190 : v190 = k0_pay7 (lsv m 0 (rgt c)))
    (Kt : (Σ' (v226 : BitVec 32), BitVec 32) → sProp 𝕄) :
    iprop(accP c (A0r m c) ∗ slotE rM c 2 (by decide)
        ∗ (∀ r, (accP c (A1 m c) ∗ stored rM c 1 (by decide) (rsv m 1 c)) -∗ Kt r))
      ⊢ wp frame (wpE (defs₀ (F := F)) 𝒱₀ (c : Thread nD τ) none) Set.univ
          (k0_part7 xM (Memref.isWhole_whole _) oM (Memref.isWhole_whole _) rM (Memref.isWhole_whole _) lM (Memref.isWhole_whole _) aM (Memref.isWhole_whole _) cc0_scratch3 cc0_scratch4 cc0_scratch5 cc0_scratch6 c v8 v186 v188 v190) Kt := by
  subst hv188 hv190
  rw [k0_part7_eq_skeleton]; unfold k0_part7_skel
  simp only [Prog.lift, Prog.bind_op, Prog.bind_ret, Prog.pure_eq_ret]
  unfold accP slotE stored slotPts
  iintro ⟨Hacc, ⟨%fr, Hr⟩, Hk⟩
  have h2 : (2 : ℕ) < 12 := by decide
  iapply (wp_load 𝒱₀ (c : Thread nD τ) none Set.univ (m := aM) (Finset.subset_univ _)) $$ Hacc; iintro Hacc
  iapply (wp_store 𝒱₀ (c : Thread nD τ) none Set.univ (m := aM) (r := R4 c 0) (Mk := Finset.univ) (Finset.subset_univ _)) $$ Hacc; iintro Hacc
  iapply (wp_load 𝒱₀ (c : Thread nD τ) none Set.univ (m := aM) (Finset.subset_univ _)) $$ Hacc; iintro Hacc
  iapply (wp_load 𝒱₀ (c : Thread nD τ) none Set.univ (m := rM) (r := (rectS 2 h2).toLoadRect) (S := (slotOf rM 2 h2).view.set)
    (q := fullShare) (f := fr) (slot_load_sub rM 2 h2)) $$ Hr; iintro Hr
  iapply (wp_store 𝒱₀ (c : Thread nD τ) none Set.univ (m := rM) (r := rectS 2 h2) (Mk := Finset.univ) (S := (slotOf rM 2 h2).view.set)
    (f := fr) (slot_store_sub rM 2 h2)) $$ Hr; iintro Hr
  rw [wp_ret]; imodintro
  iapply Hk
  isplitl [Hacc]; · iexact Hacc
  iexists fr; iexact Hr

end Cert.KernelIdeal.AR

end
-- ==== Proof.BodyS0b.lean ====
/- Part 2 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel

theorem part2_spec (K : Dev nD × Fin 13 → ℕ) (c : Dev nD) (v2 v5 v8 v19 v30 v33 v34 : BitVec 32)
    (Kt : (Σ' (v59 : BitVec 32) (v62 : BitVec 32) (v63 : BitVec 32) (v64 : BitVec 1), BitVec 1) → sProp 𝕄) :
    iprop(records m K ∗ levAts L lv ∗ barToks c ∗ oddSlots rM c ∗ oddSlots lM c ∗ owesE c 0
        ∗ cred (tallyAt (cBar c) 0 2) ∗ atPos ER (cBar c) 0 ∅ 0 ∗ xP m c ∗ (∃ f, accP c f)
        ∗ (∀ r, (owesE c 2 ∗ atPos ER (cBar c) 1 ∅ 0 ∗ oddSlots rM (rgt c) ∗ oddSlots lM (lft c) ∗ xP m c ∗ accP c (A0 m c)) -∗ Kt r))
      ⊢ wp frame (wpE (defs₀ (F := F)) 𝒱₀ (c : Thread nD τ) none) Set.univ
          (k0_part2 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v8 v19 v30 (SemArray.scalar (sig.barrier 0 rfl)) v33 v34) Kt := by
  rw [k0_part2_eq_skeleton]; unfold k0_part2_skel
  simp only [semSignalWord, semWaitWord, Prog.lift, Prog.bind_op, Prog.bind_ret, Prog.pure_eq_ret]
  unfold barToks xP accP
  iintro ⟨#Hrec, #Hlev, ⟨Ht1, Ht2⟩, Hor, Hol, HO, Hcr, Hat, Hx, ⟨%fa, Hacc⟩, Hk⟩
  iapply (sigL m K c (⟨k0_dev1 c, k0_dev1_lt c⟩ : Dev nD) (dev1_eq c)) $$ [Ht1 Hor HO]
  · iframe # ∗
  iintro HO
  iapply (sigR m K c (⟨k0_dev2 c, k0_dev2_lt c⟩ : Dev nD) (dev2_eq c)) $$ [Ht2 Hol HO]
  · iframe # ∗
  iintro HO
  iapply (waitBar m K c) $$ [Hcr Hat HO]
  · iframe # ∗
  iintro ⟨HO, Hat, Hor, Hol⟩
  iapply (wp_load 𝒱₀ (c : Thread nD τ) none Set.univ (m := xM) (Finset.subset_univ _)) $$ Hx; iintro Hx
  rw [readAt_whole_x]
  iapply (wp_load 𝒱₀ (c : Thread nD τ) none Set.univ (m := aM) (Finset.subset_univ _)) $$ Hacc; iintro Hacc
  iapply (wp_store 𝒱₀ (c : Thread nD τ) none Set.univ (m := aM) (r := (Rect.unit (s := S1024x512) ![0, 0] S1024x512.size inb_S1024x512_S1024x512_0_0)) (Mk := Finset.univ) (Finset.subset_univ _)) $$ Hacc; iintro Hacc
  rw [write_whole_a]
  rw [wp_ret]; imodintro
  iapply Hk
  iframe # ∗
  iexact Hacc

end Cert.KernelIdeal.AR

end
-- ==== Proof.BodyS0c.lean ====
/- Part 4 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

private theorem dev3_eq (c : Dev nD) : (⟨k0_dev3 c, k0_dev3_lt c⟩ : Dev nD) = rgt c := by revert c; decide +kernel
private theorem dev4_eq (c : Dev nD) : (⟨k0_dev4 c, k0_dev4_lt c⟩ : Dev nD) = lft c := by revert c; decide +kernel

private theorem fbR_0 (c : Dev nD) : fbR (F := F) c 0 = iprop(emp) := if_neg (by decide)
private theorem fbL_0 (c : Dev nD) : fbL (F := F) c 0 = iprop(emp) := if_neg (by decide)

theorem part4_spec (K : Dev nD × Fin 13 → ℕ) (c : Dev nD) (v2 v5 v19 v30 : BitVec 32) (Kt : PUnit → sProp 𝕄) :
    iprop(records m K ∗ levAts L lv ∗ stored rM c 0 (by decide) (rsv m 0 c) ∗ slotE rM (rgt c) 1 (by decide)
        ∗ stored lM c 0 (by decide) (lsv m 0 c) ∗ slotE lM (lft c) 1 (by decide) ∗ stepToks c 0 ∗ owesE c 2
        ∗ atPos ER (cRS c (sj 0)) 0 ∅ 0
        ∗ ((owesE c 4 ∗ cred (tallyAt (cLS c (sj 0)) 0 N) ∗ atPos ER (cRS c (sj 0)) 1 ∅ 0 ∗ reached ER (cRS c (sj 0)) 1
            ∗ slotE rM c 0 (by decide)) -∗ Kt ⟨⟩))
      ⊢ wp frame (wpE (defs₀ (F := F)) 𝒱₀ (c : Thread nD τ) none) Set.univ
          (k0_part4 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19 v30) Kt := by
  rw [k0_part4_eq_skeleton]; unfold k0_part4_skel
  simp only [Prog.lift, Prog.bind_op, Prog.bind_ret, Prog.pure_eq_ret]
  have h0 : (0 : ℕ) < 6 := by decide
  have k0 : (0 : ℕ) < 12 := by decide
  have k1 : (1 : ℕ) < 12 := by decide
  have hN : (slotOf rM 0 k0).view.dmaCredit = N := rfl
  unfold stepToks
  iintro ⟨#Hrec, #Hlev, HstR, HdR, HstL, HdL, ⟨Ht1, Ht2, Ht3, Ht4⟩, Ho, HaRS, Hk⟩
  ihave #HrRS := (reached0_RS m K c (sj 0)) $$ Hrec
  ihave #HrRR := (reached0_RR m K (rgt c) (sj 0)) $$ Hrec
  ihave #HrLS := (reached0_LS m K c (sj 0)) $$ Hrec
  ihave #HrLR := (reached0_LR m K (lft c) (sj 0)) $$ Hrec
  iapply (enqR m K c 0 h0 ⟨k0_dev3 c, k0_dev3_lt c⟩ (dev3_eq c)) $$ [HstR HdR Ht1 Ht2 Ho]
  · rw [fbR_0]
    iframe # ∗
  iintro ⟨HcRS, Ho⟩
  iapply (enqL m K c 0 h0 ⟨k0_dev4 c, k0_dev4_lt c⟩ (dev4_eq c)) $$ [HstL HdL Ht3 Ht4 Ho]
  · rw [fbL_0]
    iframe # ∗
  iintro ⟨HcLS, Ho⟩
  iapply (waitSR m K c 0 h0 (src := slotOf rM 1 k1) (dst := slotOf rM 0 k0) hN) $$ [HcRS HaRS Ho]
  · iframe # ∗
  iintro ⟨Ho, HaRS, #HreRS, HsR⟩
  rw [wp_ret]; imodintro
  iapply Hk
  iframe # ∗

end Cert.KernelIdeal.AR

end
-- ==== Proof.BodyS0d.lean ====
/- Part 5 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem part5_spec (K : Dev nD × Fin 13 → ℕ) (c : Dev nD) (v2 v5 v8 v19 : BitVec 32)
    (Kt : (Σ' (v153 : BitVec 32), BitVec 32) → sProp 𝕄) :
    iprop(records m K ∗ levAts L lv
        ∗ cred (tallyAt (cRR c (sj 0)) 0 N) ∗ atPos ER (cRR c (sj 0)) 0 ∅ 0
        ∗ cred (tallyAt (cLS c (sj 0)) 0 N) ∗ atPos ER (cLS c (sj 0)) 0 ∅ 0
        ∗ cred (tallyAt (cLR c (sj 0)) 0 N) ∗ atPos ER (cLR c (sj 0)) 0 ∅ 0 ∗ owesE c 4
        ∗ (∀ r, (owesE c 4
            ∗ atPos ER (cRR c (sj 0)) 1 ∅ 0 ∗ reached ER (cRR c (sj 0)) 1 ∗ landed rM c (lft c) 0 (by decide) (rsv m 0 (lft c)) ∗ fbR c 0
            ∗ atPos ER (cLS c (sj 0)) 1 ∅ 0 ∗ reached ER (cLS c (sj 0)) 1 ∗ slotE lM c 0 (by decide)
            ∗ atPos ER (cLR c (sj 0)) 1 ∅ 0 ∗ reached ER (cLR c (sj 0)) 1 ∗ landed lM c (rgt c) 0 (by decide) (lsv m 0 (rgt c)) ∗ fbL c 0) -∗ Kt r))
      ⊢ wp frame (wpE (defs₀ (F := F)) 𝒱₀ (c : Thread nD τ) none) Set.univ
          (k0_part5 xM (Memref.isWhole_whole _) oM (Memref.isWhole_whole _) rM (Memref.isWhole_whole _) lM (Memref.isWhole_whole _) aM (Memref.isWhole_whole _) cc0_scratch3 cc0_scratch4 cc0_scratch5 cc0_scratch6 v2 v5 v8 v19) Kt := by
  rw [k0_part5_eq_skeleton]; unfold k0_part5_skel
  simp only [Prog.lift, Prog.bind_op, Prog.bind_ret, Prog.pure_eq_ret]
  iintro ⟨#Hrec, #Hlev, Hc1, Hp1, Hc2, Hp2, Hc3, Hp3, Ho, Hk⟩
  have h0 : (0 : ℕ) < 6 := by decide
  have k0 : (0 : ℕ) < 12 := by decide
  have k1 : (1 : ℕ) < 12 := by decide
  iapply (waitRR m K c 0 h0 (src := slotOf rM 0 k0) (dst := slotOf rM 1 k1) rfl) $$ [Hc1 Hp1 Ho]
  · iframe # ∗
  iintro ⟨Ho, Hp1, #Hr1, Hl1, Hf1⟩
  iapply (waitSL m K c 0 h0 (src := slotOf lM 1 k1) (dst := slotOf lM 0 k0) rfl) $$ [Hc2 Hp2 Ho]
  · iframe # ∗
  iintro ⟨Ho, Hp2, #Hr2, Hs0⟩
  iapply (waitRL m K c 0 h0 (src := slotOf lM 0 k0) (dst := slotOf lM 1 k1) rfl) $$ [Hc3 Hp3 Ho]
  · iframe # ∗
  iintro ⟨Ho, Hp3, #Hr3, Hl3, Hf3⟩
  rw [wp_ret]; imodintro
  iapply Hk
  iframe # ∗

end Cert.KernelIdeal.AR

end
-- ==== Proof.BodyS1.lean ====
/- Parts 10 to 12 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem part10_spec (K : Dev nD × Fin 13 → ℕ) (c : Dev nD) (v2 v5 v8 v19 : BitVec 32)
    (Kt : (Σ' (v309 : BitVec 32) (v313 : BitVec 32) (v314 : BitVec 32), BitVec 1) → sProp 𝕄) :
    iprop(records m K ∗ levAts L lv
        ∗ cred (tallyAt (cLS c (sj 1)) 1 N) ∗ atPos ER (cLS c (sj 1)) 0 ∅ 0
        ∗ cred (tallyAt (cLR c (sj 1)) 1 N) ∗ atPos ER (cLR c (sj 1)) 0 ∅ 0 ∗ owesE c 6
        ∗ (∀ r, (owesE c 6 ∗ atPos ER (cLS c (sj 1)) 1 ∅ 0 ∗ reached ER (cLS c (sj 1)) 1 ∗ slotE lM c 2 (by decide)
            ∗ atPos ER (cLR c (sj 1)) 1 ∅ 0 ∗ reached ER (cLR c (sj 1)) 1
            ∗ landed lM c (rgt c) 1 (by decide) (lsv m 1 (rgt c)) ∗ fbL c 1) -∗ Kt r))
      ⊢ wp frame (wpE (defs₀ (F := F)) 𝒱₀ (c : Thread nD τ) none) Set.univ
          (k0_part10 xM (Memref.isWhole_whole _) oM (Memref.isWhole_whole _) rM (Memref.isWhole_whole _) lM (Memref.isWhole_whole _) aM (Memref.isWhole_whole _) cc0_scratch3 cc0_scratch4 cc0_scratch5 cc0_scratch6 v2 v5 v8 v19) Kt := by
  rw [k0_part10_eq_skeleton]; unfold k0_part10_skel
  simp only [Prog.lift, Prog.bind_op, Prog.bind_ret, Prog.pure_eq_ret]
  iintro ⟨#Hrec, #Hlev, HcS, HpS, HcR, HpR, Ho, Hk⟩
  have h1 : (1 : ℕ) < 6 := by decide
  have h2 : (2 : ℕ) < 12 := by decide
  have h3 : (3 : ℕ) < 12 := by decide
  iapply (waitSL m K c 1 h1 (src := slotOf lM 3 h3) (dst := slotOf lM 2 h2) rfl) $$ [HcS HpS Ho]
  · iframe # ∗
  iintro ⟨Ho, HpS, #HrS, HsS⟩
  iapply (waitRL m K c 1 h1 (src := slotOf lM 2 h2) (dst := slotOf lM 3 h3) rfl) $$ [HcR HpR Ho]
  · iframe # ∗
  iintro ⟨Ho, HpR, #HrR, Hland, Hfb⟩
  rw [wp_ret]; imodintro
  iapply Hk
  iframe # ∗

theorem part11_spec (c : Dev nD) (v8 v309 v313 v314 : BitVec 32) (v315 : BitVec 1)
    (Kt : (Σ' (v347 : BitVec 32) (v348 : BitVec 32) (v349 : BitVec 1) (v350 : BitVec 1), BitVec 1) → sProp 𝕄) :
    iprop(accP c (A1 m c) ∗ landed rM c (lft c) 1 (by decide) (rsv m 1 (lft c)) ∗ landed lM c (rgt c) 1 (by decide) (lsv m 1 (rgt c))
        ∗ (∀ r, (accP c (A2 m c) ∗ slotE rM c 3 (by decide) ∗ slotE lM c 3 (by decide)) -∗ Kt r))
      ⊢ wp frame (wpE (defs₀ (F := F)) 𝒱₀ (c : Thread nD τ) none) Set.univ
          (k0_part11 xM (Memref.isWhole_whole _) oM (Memref.isWhole_whole _) rM (Memref.isWhole_whole _) lM (Memref.isWhole_whole _) aM (Memref.isWhole_whole _) cc0_scratch3 cc0_scratch4 cc0_scratch5 cc0_scratch6 c v8 v309 v313 v314 v315) Kt := by
  rw [k0_part11_eq_skeleton]; unfold k0_part11_skel
  simp only [Prog.lift, Prog.bind_op, Prog.bind_ret, Prog.pure_eq_ret]
  unfold accP landed slotE slotPts
  iintro ⟨Hacc, ⟨%fdr, %fr, Hr⟩, ⟨%fdl, %fl, Hl⟩, Hk⟩
  have h2 : (2 : ℕ) < 12 := by decide
  have h3 : (3 : ℕ) < 12 := by decide
  have hRd := readAt_landed (F := F) rM 3 2 h3 h2 fdr fr (rsv m 1 (lft c))
  have hLd := readAt_landed (F := F) lM 3 2 h3 h2 fdl fl (lsv m 1 (rgt c))
  iapply (wp_load 𝒱₀ (c : Thread nD τ) none Set.univ (m := aM) (Finset.subset_univ _)) $$ Hacc; iintro Hacc
  iapply (wp_load 𝒱₀ (c : Thread nD τ) none Set.univ (m := rM) (r := (rectS 3 h3).toLoadRect) (S := (slotOf rM 3 h3).view.set)
    (q := fullShare) (f := ((slotOf rM 3 h3).view.write (Elt F) fdr ((slotOf rM 2 h2).view.read (Elt F) ((rM.access (rectS 2 h2)).write (Elt F) fr (rsv m 1 (lft c)) Finset.univ)) Finset.univ)) (slot_load_sub rM 3 h3)) $$ Hr; iintro Hr
  iapply (wp_load 𝒱₀ (c : Thread nD τ) none Set.univ (m := aM) (Finset.subset_univ _)) $$ Hacc; iintro Hacc
  iapply (wp_store 𝒱₀ (c : Thread nD τ) none Set.univ (m := aM) (r := R3 c 1) (Mk := Finset.univ) (S := Finset.univ) (Finset.subset_univ _)) $$ Hacc; iintro Hacc
  iapply (wp_load 𝒱₀ (c : Thread nD τ) none Set.univ (m := aM) (Finset.subset_univ _)) $$ Hacc; iintro Hacc
  iapply (wp_load 𝒱₀ (c : Thread nD τ) none Set.univ (m := lM) (r := (rectS 3 h3).toLoadRect) (S := (slotOf lM 3 h3).view.set)
    (q := fullShare) (f := ((slotOf lM 3 h3).view.write (Elt F) fdl ((slotOf lM 2 h2).view.read (Elt F) ((lM.access (rectS 2 h2)).write (Elt F) fl (lsv m 1 (rgt c)) Finset.univ)) Finset.univ)) (slot_load_sub lM 3 h3)) $$ Hl; iintro Hl
  iapply (wp_load 𝒱₀ (c : Thread nD τ) none Set.univ (m := aM) (Finset.subset_univ _)) $$ Hacc; iintro Hacc
  iapply (wp_store 𝒱₀ (c : Thread nD τ) none Set.univ (m := aM) (r := R4 c 1) (Mk := Finset.univ) (S := Finset.univ) (Finset.subset_univ _)) $$ Hacc; iintro Hacc
  rw [wp_ret]; imodintro
  rw [hRd, hLd]
  iapply Hk
  isplitl [Hacc]; · iexact Hacc
  isplitl [Hr]
  · iexists _; iexact Hr
  · iexists _; iexact Hl

theorem part12_spec (c : Dev nD) (v2 v5 v8 v347 v348 : BitVec 32) (v349 v350 v351 : BitVec 1)
    (Kt : (Σ' (v383 : BitVec 32), BitVec 32) → sProp 𝕄) :
    iprop(accP c (A2 m c) ∗ slotE rM c 4 (by decide) ∗ slotE lM c 4 (by decide)
        ∗ (∀ r, (accP c (A2 m c) ∗ stored rM c 2 (by decide) (rsv m 2 c) ∗ stored lM c 2 (by decide) (lsv m 2 c)) -∗ Kt r))
      ⊢ wp frame (wpE (defs₀ (F := F)) 𝒱₀ (c : Thread nD τ) none) Set.univ
          (k0_part12 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v8 v347 v348 v349 v350 v351) Kt := by
  rw [k0_part12_eq_skeleton]; unfold k0_part12_skel
  simp only [Prog.lift, Prog.bind_op, Prog.bind_ret, Prog.pure_eq_ret]
  unfold accP slotE stored slotPts
  iintro ⟨Hacc, ⟨%fr, Hr⟩, ⟨%fl, Hl⟩, Hk⟩
  have h4 : (4 : ℕ) < 12 := by decide
  iapply (wp_load 𝒱₀ (c : Thread nD τ) none Set.univ (m := aM) (Finset.subset_univ _)) $$ Hacc; iintro Hacc
  iapply (wp_load 𝒱₀ (c : Thread nD τ) none Set.univ (m := rM) (r := (rectS 4 h4).toLoadRect) (S := (slotOf rM 4 h4).view.set)
    (q := fullShare) (f := fr) (slot_load_sub rM 4 h4)) $$ Hr; iintro Hr
  iapply (wp_store 𝒱₀ (c : Thread nD τ) none Set.univ (m := rM) (r := rectS 4 h4) (Mk := Finset.univ) (S := (slotOf rM 4 h4).view.set)
    (f := fr) (slot_store_sub rM 4 h4)) $$ Hr; iintro Hr
  iapply (wp_load 𝒱₀ (c : Thread nD τ) none Set.univ (m := aM) (Finset.subset_univ _)) $$ Hacc; iintro Hacc
  iapply (wp_load 𝒱₀ (c : Thread nD τ) none Set.univ (m := lM) (r := (rectS 4 h4).toLoadRect) (S := (slotOf lM 4 h4).view.set)
    (q := fullShare) (f := fl) (slot_load_sub lM 4 h4)) $$ Hl; iintro Hl
  iapply (wp_store 𝒱₀ (c : Thread nD τ) none Set.univ (m := lM) (r := rectS 4 h4) (Mk := Finset.univ) (S := (slotOf lM 4 h4).view.set)
    (f := fl) (slot_store_sub lM 4 h4)) $$ Hl; iintro Hl
  rw [wp_ret]; imodintro
  iapply Hk
  isplitl [Hacc]; · iexact Hacc
  isplitl [Hr]
  · iexists fr; iexact Hr
  · iexists fl; iexact Hl

end Cert.KernelIdeal.AR

end
-- ==== Proof.BodyS1b.lean ====
/- Parts 8 and 9 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

private theorem dev5_rgt' (c : Dev nD) : (⟨k0_dev5 c, k0_dev5_lt c⟩ : Dev nD) = rgt c := by revert c; decide +kernel
private theorem dev6_lft' (c : Dev nD) : (⟨k0_dev6 c, k0_dev6_lt c⟩ : Dev nD) = lft c := by revert c; decide +kernel

private theorem fbR_rgt1 (c : Dev nD) : (fbR (rgt c) 1 : sProp 𝕄) = reached ER (cLR c (sj 0)) 1 := by
  unfold fbR; rw [lft_rgt]; exact if_pos (by decide)
private theorem fbL_lft1 (c : Dev nD) : (fbL (lft c) 1 : sProp 𝕄) = reached ER (cRR c (sj 0)) 1 := by
  unfold fbL; rw [rgt_lft]; exact if_pos (by decide)

theorem part8_spec (K : Dev nD × Fin 13 → ℕ) (c : Dev nD) (v2 v5 v19 v30 v226 c512 : BitVec 32) (Kt : PUnit → sProp 𝕄) :
    iprop(records m K ∗ reached ER (cLR c (sj 0)) 1
        ∗ accP c (A1 m c) ∗ slotE lM c 2 (by decide) ∗ stored rM c 1 (by decide) (rsv m 1 c) ∗ slotE rM (rgt c) 3 (by decide)
        ∗ dutyTok ER (cRS c (sj 1)) (rd 1) false ∗ dutyTok ER (cRR (rgt c) (sj 1)) (rd 1) false ∗ owesE c 4
        ∗ ((accP c (A1 m c) ∗ stored lM c 1 (by decide) (lsv m 1 c) ∗ cred (tallyAt (cRS c (sj 1)) 1 N) ∗ owesE c 5) -∗ Kt ⟨⟩))
      ⊢ wp frame (wpE (defs₀ (F := F)) 𝒱₀ (c : Thread nD τ) none) Set.univ
          (k0_part8 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19 v30 v226 c512) Kt := by
  rw [k0_part8_eq_skeleton]; unfold k0_part8_skel
  simp only [Prog.lift, Prog.bind_op, Prog.bind_ret, Prog.pure_eq_ret]
  unfold accP slotE stored slotPts
  iintro ⟨#Hrec, #HrLR0, Hacc, ⟨%fl, Hl⟩, Hsr, Her, Tk1, Tk2, Ho, Hk⟩
  have h1 : (1 : ℕ) < 6 := by decide
  have h2 : (2 : ℕ) < 12 := by decide
  iapply (wp_load 𝒱₀ (c : Thread nD τ) none Set.univ (m := aM) (Finset.subset_univ _)) $$ Hacc; iintro Hacc
  iapply (wp_load 𝒱₀ (c : Thread nD τ) none Set.univ (m := lM) (r := (rectS 2 h2).toLoadRect) (S := (slotOf lM 2 h2).view.set)
    (q := fullShare) (f := fl) (slot_load_sub lM 2 h2)) $$ Hl; iintro Hl
  iapply (wp_store 𝒱₀ (c : Thread nD τ) none Set.univ (m := lM) (r := rectS 2 h2) (Mk := Finset.univ) (S := (slotOf lM 2 h2).view.set)
    (f := fl) (slot_store_sub lM 2 h2)) $$ Hl; iintro Hl
  iapply (enqR m K c 1 h1 ⟨k0_dev5 c, k0_dev5_lt c⟩ (dev5_rgt' c)) $$ [Hsr Her Tk1 Tk2 Ho]
  · isplitr; · iexact Hrec
    isplitr; · iapply (reached0_RS m K c (sj 1)); iexact Hrec
    isplitr; · iapply (reached0_RR m K (rgt c) (sj 1)); iexact Hrec
    isplitr; · rw [fbR_rgt1]; iexact HrLR0
    isplitl [Hsr]; · unfold stored slotPts; iexact Hsr
    isplitl [Her]; · unfold slotE slotPts; iexact Her
    iframe # ∗
  iintro ⟨Hc1, Ho⟩
  rw [wp_ret]; imodintro
  iapply Hk
  isplitl [Hacc]; · iexact Hacc
  isplitl [Hl]; · iexists fl; iexact Hl
  iframe # ∗

theorem part9_spec (K : Dev nD × Fin 13 → ℕ) (c : Dev nD) (v2 v5 v30 : BitVec 32) (Kt : PUnit → sProp 𝕄) :
    iprop(records m K ∗ levAts L lv ∗ reached ER (cRR c (sj 0)) 1
        ∗ stored lM c 1 (by decide) (lsv m 1 c) ∗ slotE lM (lft c) 3 (by decide)
        ∗ dutyTok ER (cLS c (sj 1)) (rd 1) false ∗ dutyTok ER (cLR (lft c) (sj 1)) (rd 1) false ∗ owesE c 5
        ∗ cred (tallyAt (cRS c (sj 1)) 1 N) ∗ atPos ER (cRS c (sj 1)) 0 ∅ 0
        ∗ cred (tallyAt (cRR c (sj 1)) 1 N) ∗ atPos ER (cRR c (sj 1)) 0 ∅ 0
        ∗ ((owesE c 6 ∗ cred (tallyAt (cLS c (sj 1)) 1 N)
            ∗ atPos ER (cRS c (sj 1)) 1 ∅ 0 ∗ reached ER (cRS c (sj 1)) 1 ∗ slotE rM c 2 (by decide)
            ∗ atPos ER (cRR c (sj 1)) 1 ∅ 0 ∗ reached ER (cRR c (sj 1)) 1
            ∗ landed rM c (lft c) 1 (by decide) (rsv m 1 (lft c)) ∗ fbR c 1) -∗ Kt ⟨⟩))
      ⊢ wp frame (wpE (defs₀ (F := F)) 𝒱₀ (c : Thread nD τ) none) Set.univ
          (k0_part9 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v30) Kt := by
  rw [k0_part9_eq_skeleton]; unfold k0_part9_skel
  simp only [Prog.lift, Prog.bind_op, Prog.bind_ret, Prog.pure_eq_ret]
  iintro ⟨#Hrec, #Hlev, #HrRR0, Hsl, Hel, Tk3, Tk4, Ho, Hc1, Hp1, Hc2, Hp2, Hk⟩
  have h1 : (1 : ℕ) < 6 := by decide
  have h2 : (2 : ℕ) < 12 := by decide
  have h3 : (3 : ℕ) < 12 := by decide
  iapply (enqL m K c 1 h1 ⟨k0_dev6 c, k0_dev6_lt c⟩ (dev6_lft' c)) $$ [Hsl Hel Tk3 Tk4 Ho]
  · isplitr; · iexact Hrec
    isplitr; · iapply (reached0_LS m K c (sj 1)); iexact Hrec
    isplitr; · iapply (reached0_LR m K (lft c) (sj 1)); iexact Hrec
    isplitr; · rw [fbL_lft1]; iexact HrRR0
    iframe # ∗
  iintro ⟨Hc3, Ho⟩
  iapply (waitSR m K c 1 h1 (src := slotOf rM 3 h3) (dst := slotOf rM 2 h2) rfl) $$ [Hc1 Hp1 Ho]
  · iframe # ∗
  iintro ⟨Ho, Hp1, #Hr1, Hs2⟩
  iapply (waitRR m K c 1 h1 (src := slotOf rM 2 h2) (dst := slotOf rM 3 h3) rfl) $$ [Hc2 Hp2 Ho]
  · iframe # ∗
  iintro ⟨Ho, Hp2, #Hr2, Hl1, Hf1⟩
  rw [wp_ret]; imodintro
  iapply Hk
  iframe # ∗

end Cert.KernelIdeal.AR

end
-- ==== Proof.BodyS2.lean ====
/- Parts 13 to 16 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem dev7_eq (c : Dev nD) : (⟨k0_dev7 c, k0_dev7_lt c⟩ : Dev nD) = rgt c := by revert c; decide +kernel
theorem dev8_eq (c : Dev nD) : (⟨k0_dev8 c, k0_dev8_lt c⟩ : Dev nD) = lft c := by revert c; decide +kernel

theorem fbR_rgt_2 (c : Dev nD) : (fbR (F := F) (rgt c) 2 : sProp 𝕄) = reached ER (cLR c (sj 1)) 1 := by
  unfold fbR; rw [if_pos (by decide), lft_rgt]; rfl
theorem fbL_lft_2 (c : Dev nD) : (fbL (F := F) (lft c) 2 : sProp 𝕄) = reached ER (cRR c (sj 1)) 1 := by
  unfold fbL; rw [if_pos (by decide), rgt_lft]; rfl

theorem part13_spec (K : Dev nD × Fin 13 → ℕ) (c : Dev nD) (v2 v5 v19 v30 v383 v384 : BitVec 32) (Kt : PUnit → sProp 𝕄) :
    iprop(records m K ∗ levAts L lv
        ∗ reached ER (cLR c (sj 1)) 1 ∗ reached ER (cRR c (sj 1)) 1
        ∗ stored rM c 2 (by decide) (rsv m 2 c) ∗ slotE rM (rgt c) 5 (by decide)
        ∗ stored lM c 2 (by decide) (lsv m 2 c) ∗ slotE lM (lft c) 5 (by decide)
        ∗ stepToks c 2 ∗ owesE c 6 ∗ atPos ER (cRS c (sj 2)) 0 ∅ 0
        ∗ ((owesE c 8 ∗ cred (tallyAt (cLS c (sj 2)) 2 N) ∗ atPos ER (cRS c (sj 2)) 1 ∅ 0 ∗ reached ER (cRS c (sj 2)) 1
              ∗ slotE rM c 4 (by decide)) -∗ Kt ⟨⟩))
      ⊢ wp frame (wpE (defs₀ (F := F)) 𝒱₀ (c : Thread nD τ) none) Set.univ
          (k0_part13 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19 v30 v383 v384) Kt := by
  have h2 : (2 : ℕ) < 6 := by decide
  have h4 : (4 : ℕ) < 12 := by decide
  have h5 : (5 : ℕ) < 12 := by decide
  rw [k0_part13_eq_skeleton]; unfold k0_part13_skel
  simp only [Prog.lift, Prog.bind_op, Prog.bind_ret, Prog.pure_eq_ret]
  unfold stepToks
  iintro ⟨#Hrec, #Hlev, #HfR, #HfL, Hsr, Hdr, Hsl, Hdl, ⟨TRS, TRR, TLS, TLR⟩, HO, Hat, Hk⟩
  iapply (enqR m K c 2 h2 (⟨k0_dev7 c, k0_dev7_lt c⟩ : Dev nD) (dev7_eq c)) $$ [Hsr Hdr TRS TRR HO]
  · isplitr; · iexact Hrec
    isplitr; · iapply (reached0_RS m K c (sj 2)); iexact Hrec
    isplitr; · iapply (reached0_RR m K (rgt c) (sj 2)); iexact Hrec
    isplitr; · rw [fbR_rgt_2]; iexact HfR
    iframe # ∗
  iintro ⟨HcRS, HO⟩
  iapply (enqL m K c 2 h2 (⟨k0_dev8 c, k0_dev8_lt c⟩ : Dev nD) (dev8_eq c)) $$ [Hsl Hdl TLS TLR HO]
  · isplitr; · iexact Hrec
    isplitr; · iapply (reached0_LS m K c (sj 2)); iexact Hrec
    isplitr; · iapply (reached0_LR m K (lft c) (sj 2)); iexact Hrec
    isplitr; · rw [fbL_lft_2]; iexact HfL
    iframe # ∗
  iintro ⟨HcLS, HO⟩
  iapply (waitSR m K c (src := slotOf rM 5 h5) (dst := slotOf rM 4 h4) 2 h2 (show (slotOf rM 4 h4).view.dmaCredit = N from rfl)) $$ [HcRS Hat HO]
  · iframe # ∗
  iintro ⟨HO, Hat, #Hr, Hs⟩
  rw [wp_ret]; imodintro
  iapply Hk
  iframe # ∗

theorem part14_spec (K : Dev nD × Fin 13 → ℕ) (c : Dev nD) (v2 v5 v19 v30 : BitVec 32) (Kt : PUnit → sProp 𝕄) :
    iprop(records m K ∗ levAts L lv
        ∗ cred (tallyAt (cRR c (sj 2)) 2 N) ∗ cred (tallyAt (cLS c (sj 2)) 2 N)
        ∗ atPos ER (cRR c (sj 2)) 0 ∅ 0 ∗ atPos ER (cLS c (sj 2)) 0 ∅ 0 ∗ owesE c 8
        ∗ ((owesE c 8 ∗ atPos ER (cRR c (sj 2)) 1 ∅ 0 ∗ reached ER (cRR c (sj 2)) 1
              ∗ landed rM c (lft c) 2 (by decide) (rsv m 2 (lft c)) ∗ fbR c 2
              ∗ atPos ER (cLS c (sj 2)) 1 ∅ 0 ∗ reached ER (cLS c (sj 2)) 1 ∗ slotE lM c 4 (by decide)) -∗ Kt ⟨⟩))
      ⊢ wp frame (wpE (defs₀ (F := F)) 𝒱₀ (c : Thread nD τ) none) Set.univ
          (k0_part14 xM (Memref.isWhole_whole _) oM (Memref.isWhole_whole _) rM (Memref.isWhole_whole _) lM (Memref.isWhole_whole _) aM (Memref.isWhole_whole _) cc0_scratch3 cc0_scratch4 cc0_scratch5 cc0_scratch6 v2 v5 v19 v30) Kt := by
  have h2 : (2 : ℕ) < 6 := by decide
  have h4 : (4 : ℕ) < 12 := by decide
  have h5 : (5 : ℕ) < 12 := by decide
  rw [k0_part14_eq_skeleton]; unfold k0_part14_skel
  simp only [Prog.lift, Prog.bind_op, Prog.bind_ret, Prog.pure_eq_ret]
  iintro ⟨#Hrec, #Hlev, HcRR, HcLS, HaRR, HaLS, HO, Hk⟩
  iapply (waitRR m K c (src := slotOf rM 4 h4) (dst := slotOf rM 5 h5) 2 h2 (show (slotOf rM 5 h5).view.dmaCredit = N from rfl)) $$ [HcRR HaRR HO]
  · iframe # ∗
  iintro ⟨HO, HaRR, #HrRR, Hland, Hfb⟩
  iapply (waitSL m K c (src := slotOf lM 5 h5) (dst := slotOf lM 4 h4) 2 h2 (show (slotOf lM 4 h4).view.dmaCredit = N from rfl)) $$ [HcLS HaLS HO]
  · iframe # ∗
  iintro ⟨HO, HaLS, #HrLS, Hs⟩
  rw [wp_ret]; imodintro
  iapply Hk
  iframe # ∗

theorem part15_spec (K : Dev nD × Fin 13 → ℕ) (c : Dev nD) (v8 : BitVec 32) (Kt : (Σ' (v469 : BitVec 32), FVec F S128x512 .f32) → sProp 𝕄) :
    iprop(records m K ∗ levAts L lv
        ∗ cred (tallyAt (cLR c (sj 2)) 2 N) ∗ atPos ER (cLR c (sj 2)) 0 ∅ 0 ∗ owesE c 8
        ∗ accP c (A2 m c) ∗ landed rM c (lft c) 2 (by decide) (rsv m 2 (lft c))
        ∗ (∀ r : (Σ' (v469 : BitVec 32), FVec F S128x512 .f32), ⌜r.2 = k0_pay15 (rdA (R3 c 2) (A2 m c)) (rsv m 2 (lft c))⌝ -∗
            (owesE c 8 ∗ atPos ER (cLR c (sj 2)) 1 ∅ 0 ∗ reached ER (cLR c (sj 2)) 1
              ∗ landed lM c (rgt c) 2 (by decide) (lsv m 2 (rgt c)) ∗ fbL c 2
              ∗ accP c (A2 m c) ∗ slotE rM c 5 (by decide)) -∗ Kt r))
      ⊢ wp frame (wpE (defs₀ (F := F)) 𝒱₀ (c : Thread nD τ) none) Set.univ
          (k0_part15 xM (Memref.isWhole_whole _) oM (Memref.isWhole_whole _) rM (Memref.isWhole_whole _) lM (Memref.isWhole_whole _) aM (Memref.isWhole_whole _) cc0_scratch3 cc0_scratch4 cc0_scratch5 cc0_scratch6 c v8) Kt := by
  have h2 : (2 : ℕ) < 6 := by decide
  have h4 : (4 : ℕ) < 12 := by decide
  have h5 : (5 : ℕ) < 12 := by decide
  rw [k0_part15_eq_skeleton]; unfold k0_part15_skel
  simp only [Prog.lift, Prog.bind_op, Prog.bind_ret, Prog.pure_eq_ret]
  iintro ⟨#Hrec, #Hlev, HcLR, HaLR, HO, Hacc, Hland, Hk⟩
  iapply (waitRL m K c (src := slotOf lM 4 h4) (dst := slotOf lM 5 h5) 2 h2 (show (slotOf lM 5 h5).view.dmaCredit = N from rfl)) $$ [HcLR HaLR HO]
  · iframe # ∗
  iintro ⟨HO, HaLR, #HrLR, HlandL, Hfb⟩
  unfold accP
  ihave Hland' := (show landed rM c (lft c) 2 h2 (rsv m 2 (lft c)) ⊢
      (∃ (fd : Buf (Elt F) ((slotOf rM 5 h5).view.loc (c : Thread nD τ))) (fs : Buf (Elt F) ((slotOf rM 4 h4).view.loc ((lft c : Dev nD) : Thread nD τ))),
        ((slotOf rM 5 h5).view.loc (c : Thread nD τ)) ↦[(slotOf rM 5 h5).view.set]{fullShare}
          ((slotOf rM 5 h5).view.write (Elt F) fd ((slotOf rM 4 h4).view.read (Elt F) ((rM.access (rectS 4 h4)).write (Elt F) fs (rsv m 2 (lft c)) Finset.univ)) Finset.univ) : sProp 𝕄) from by
        unfold landed slotPts; exact .rfl) $$ Hland
  icases Hland' with ⟨%fd, %fs, Hr⟩
  iapply (wp_load 𝒱₀ (c : Thread nD τ) none Set.univ (m := aM) (Finset.subset_univ _)) $$ Hacc; iintro Hacc
  iapply (wp_load 𝒱₀ (c : Thread nD τ) none Set.univ (m := rM) (r := (rectS 5 h5).toLoadRect) (S := (slotOf rM 5 h5).view.set) (q := fullShare) (slot_load_sub rM 5 h5)) $$ Hr; iintro Hr
  rw [wp_ret]; imodintro
  iapply Hk
  · ipureintro
    exact congrArg (k0_pay15 _) (readAt_landed rM 5 4 h5 h4 fd fs (rsv m 2 (lft c)))
  isplitl [HO]; · iexact HO
  isplitl [HaLR]; · iexact HaLR
  isplitr; · iexact HrLR
  isplitl [HlandL]; · iexact HlandL
  isplitl [Hfb]; · iexact Hfb
  isplitl [Hacc]; · iexact Hacc
  unfold slotE slotPts
  iexists _; iexact Hr

theorem part16_spec (c : Dev nD) (v8 v469 : BitVec 32) (v476 : FVec F S128x512 .f32)
    (hv : v476 = k0_pay15 (rdA (R3 c 2) (A2 m c)) (rsv m 2 (lft c)))
    (Kt : (Σ' (v506 : BitVec 32) (v508 : BitVec 32), BitVec 32) → sProp 𝕄) :
    iprop(accP c (A2 m c) ∗ landed lM c (rgt c) 2 (by decide) (lsv m 2 (rgt c)) ∗ (∃ f, outP c f)
        ∗ (∀ r : (Σ' (v506 : BitVec 32) (v508 : BitVec 32), BitVec 32),
            (accP c (A3 m c) ∗ outP c (O0 m c) ∗ slotE lM c 5 (by decide)) -∗ Kt r))
      ⊢ wp frame (wpE (defs₀ (F := F)) 𝒱₀ (c : Thread nD τ) none) Set.univ
          (k0_part16 xM (Memref.isWhole_whole _) oM (Memref.isWhole_whole _) rM (Memref.isWhole_whole _) lM (Memref.isWhole_whole _) aM (Memref.isWhole_whole _) cc0_scratch3 cc0_scratch4 cc0_scratch5 cc0_scratch6 c v8 v469 v476) Kt := by
  have h2 : (2 : ℕ) < 6 := by decide
  have h4 : (4 : ℕ) < 12 := by decide
  have h5 : (5 : ℕ) < 12 := by decide
  subst hv
  rw [k0_part16_eq_skeleton]; unfold k0_part16_skel
  simp only [Prog.lift, Prog.bind_op, Prog.bind_ret, Prog.pure_eq_ret]
  unfold accP outP
  iintro ⟨Hacc, Hland, ⟨%fo, Hout⟩, Hk⟩
  ihave Hland' := (show landed lM c (rgt c) 2 h2 (lsv m 2 (rgt c)) ⊢
      (∃ (fd : Buf (Elt F) ((slotOf lM 5 h5).view.loc (c : Thread nD τ))) (fs : Buf (Elt F) ((slotOf lM 4 h4).view.loc ((rgt c : Dev nD) : Thread nD τ))),
        ((slotOf lM 5 h5).view.loc (c : Thread nD τ)) ↦[(slotOf lM 5 h5).view.set]{fullShare}
          ((slotOf lM 5 h5).view.write (Elt F) fd ((slotOf lM 4 h4).view.read (Elt F) ((lM.access (rectS 4 h4)).write (Elt F) fs (lsv m 2 (rgt c)) Finset.univ)) Finset.univ) : sProp 𝕄) from by
        unfold landed slotPts; exact .rfl) $$ Hland
  icases Hland' with ⟨%fd, %fs, Hl⟩
  iapply (wp_load 𝒱₀ (c : Thread nD τ) none Set.univ (m := aM) (Finset.subset_univ _)) $$ Hacc; iintro Hacc
  iapply (wp_store 𝒱₀ (c : Thread nD τ) none Set.univ (m := aM) (r := R3 c 2) (Mk := Finset.univ) (Finset.subset_univ _)) $$ Hacc; iintro Hacc
  iapply (wp_load 𝒱₀ (c : Thread nD τ) none Set.univ (m := aM) (Finset.subset_univ _)) $$ Hacc; iintro Hacc
  iapply (wp_load 𝒱₀ (c : Thread nD τ) none Set.univ (m := lM) (r := (rectS 5 h5).toLoadRect) (S := (slotOf lM 5 h5).view.set) (q := fullShare) (slot_load_sub lM 5 h5)) $$ Hl; iintro Hl
  rw [readAt_landed lM 5 4 h5 h4 fd fs (lsv m 2 (rgt c))]
  iapply (wp_load 𝒱₀ (c : Thread nD τ) none Set.univ (m := aM) (Finset.subset_univ _)) $$ Hacc; iintro Hacc
  iapply (wp_store 𝒱₀ (c : Thread nD τ) none Set.univ (m := aM) (r := R4 c 2) (Mk := Finset.univ) (Finset.subset_univ _)) $$ Hacc; iintro Hacc
  iapply (wp_load 𝒱₀ (c : Thread nD τ) none Set.univ (m := aM) (Finset.subset_univ _)) $$ Hacc; iintro Hacc
  rw [readAt_whole_a]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  rw [write_whole_o]
  rw [wp_ret]; imodintro
  iapply Hk
  isplitl [Hacc]; · iexact Hacc
  isplitl [Hout]; · iexact Hout
  unfold slotE slotPts
  iexists _; iexact Hl

end Cert.KernelIdeal.AR

end
-- ==== Proof.BodyS3.lean ====
/- Parts 17 to 20 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

private theorem landed3_eq (M : Memref sig .tc .vmem S12x128x512 .bf16) (c d : Dev nD) (h7 : (7 : ℕ) < 12) (h6 : (6 : ℕ) < 12) (v : FVec F S1x128x512 .bf16) :
    (landed M c d 3 (by decide) v : sProp 𝕄) =
      iprop(∃ (fd : Buf (Elt F) ((slotOf M 7 h7).view.loc (c : Thread nD τ))) (f : Buf (Elt F) ((slotOf M 6 h6).view.loc (d : Thread nD τ))),
        slotPts M c 7 h7 ((slotOf M 7 h7).view.write (Elt F) fd
          ((slotOf M 6 h6).view.read (Elt F) ((M.access (rectS 6 h6)).write (Elt F) f v Finset.univ)) Finset.univ)) := rfl

private theorem dev9_rgt (c : Dev nD) : (⟨k0_dev9 c, k0_dev9_lt c⟩ : Dev nD) = rgt c := by revert c; decide +kernel
private theorem dev10_lft (c : Dev nD) : (⟨k0_dev10 c, k0_dev10_lt c⟩ : Dev nD) = lft c := by revert c; decide +kernel

private theorem fbL_1 (c : Dev nD) : (fbL c 1 : sProp 𝕄) = reached ER (cRR (rgt c) (sj 3)) 1 := by
  unfold fbL; exact if_pos (by decide)
private theorem fbR_1 (c : Dev nD) : (fbR c 1 : sProp 𝕄) = reached ER (cLR (lft c) (sj 3)) 1 := by
  unfold fbR; exact if_pos (by decide)

private theorem fbR_rgt3 (c : Dev nD) : (fbR (rgt c) 3 : sProp 𝕄) = reached ER (cLR c (sj 2)) 1 := by
  unfold fbR; rw [lft_rgt]; exact if_pos (by decide)
private theorem fbL_lft3 (c : Dev nD) : (fbL (lft c) 3 : sProp 𝕄) = reached ER (cRR c (sj 2)) 1 := by
  unfold fbL; rw [rgt_lft]; exact if_pos (by decide)

theorem part17_spec (c : Dev nD) (v2 v5 v30 v506 v508 v510 : BitVec 32) (Kt : PUnit → sProp 𝕄) :
    iprop(outP c (O0 m c) ∗ slotE rM c 6 (by decide) ∗ slotE lM c 6 (by decide)
        ∗ ((outP c (O0 m c) ∗ stored rM c 3 (by decide) (rsv m 3 c) ∗ stored lM c 3 (by decide) (lsv m 3 c)) -∗ Kt ⟨⟩))
      ⊢ wp frame (wpE (defs₀ (F := F)) 𝒱₀ (c : Thread nD τ) none) Set.univ
          (k0_part17 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v30 v506 v508 v510) Kt := by
  rw [k0_part17_eq_skeleton]; unfold k0_part17_skel
  simp only [Prog.lift, Prog.bind_op, Prog.bind_ret, Prog.pure_eq_ret]
  unfold outP slotE stored slotPts
  iintro ⟨Hout, ⟨%fr, Hr⟩, ⟨%fl, Hl⟩, Hk⟩
  have h6 : (6 : ℕ) < 12 := by decide
  iapply (wp_load 𝒱₀ (c : Thread nD τ) none Set.univ (m := oM) (Finset.subset_univ _)) $$ Hout; iintro Hout
  iapply (wp_load 𝒱₀ (c : Thread nD τ) none Set.univ (m := rM) (r := (rectS 6 h6).toLoadRect) (S := (slotOf rM 6 h6).view.set)
    (q := fullShare) (f := fr) (slot_load_sub rM 6 h6)) $$ Hr; iintro Hr
  iapply (wp_store 𝒱₀ (c : Thread nD τ) none Set.univ (m := rM) (r := rectS 6 h6) (Mk := Finset.univ) (S := (slotOf rM 6 h6).view.set)
    (f := fr) (slot_store_sub rM 6 h6)) $$ Hr; iintro Hr
  iapply (wp_load 𝒱₀ (c : Thread nD τ) none Set.univ (m := oM) (Finset.subset_univ _)) $$ Hout; iintro Hout
  iapply (wp_load 𝒱₀ (c : Thread nD τ) none Set.univ (m := lM) (r := (rectS 6 h6).toLoadRect) (S := (slotOf lM 6 h6).view.set)
    (q := fullShare) (f := fl) (slot_load_sub lM 6 h6)) $$ Hl; iintro Hl
  iapply (wp_store 𝒱₀ (c : Thread nD τ) none Set.univ (m := lM) (r := rectS 6 h6) (Mk := Finset.univ) (S := (slotOf lM 6 h6).view.set)
    (f := fl) (slot_store_sub lM 6 h6)) $$ Hl; iintro Hl
  rw [wp_ret]; imodintro
  iapply Hk
  isplitl [Hout]; · iexact Hout
  isplitl [Hr]
  · iexists fr; iexact Hr
  · iexists fl; iexact Hl

theorem part18_spec (K : Dev nD × Fin 13 → ℕ) (c : Dev nD) (v2 v5 v19 : BitVec 32) (Kt : (Σ' (_ : BitVec 32), BitVec 32) → sProp 𝕄) :
    iprop(records m K ∗ levAts L lv
        ∗ reached ER (cRS c (sj 3)) 1 ∗ fbL c 1 ∗ reached ER (cLR c (sj 2)) 1
        ∗ reached ER (cLS c (sj 3)) 1 ∗ fbR c 1 ∗ reached ER (cRR c (sj 2)) 1
        ∗ stored rM c 3 (by decide) (rsv m 3 c) ∗ slotE rM (rgt c) 7 (by decide) ∗ stored lM c 3 (by decide) (lsv m 3 c) ∗ slotE lM (lft c) 7 (by decide)
        ∗ stepToks c 3 ∗ owesE c 8 ∗ atPos ER (cRS c (sj 3)) 1 ∅ 0
        ∗ (∀ r, (owesE c 10 ∗ cred (tallyAt (cLS c (sj 3)) 3 N) ∗ atPos ER (cRS c (sj 3)) 2 ∅ 0 ∗ reached ER (cRS c (sj 3)) 2 ∗ slotE rM c 6 (by decide)) -∗ Kt r))
      ⊢ wp frame (wpE (defs₀ (F := F)) 𝒱₀ (c : Thread nD τ) none) Set.univ
          (k0_part18 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19) Kt := by
  rw [k0_part18_eq_skeleton]; unfold k0_part18_skel
  simp only [Prog.lift, Prog.bind_op, Prog.bind_ret, Prog.pure_eq_ret]
  rw [fbL_1 c, fbR_1 c]
  unfold stepToks
  iintro ⟨#Hrec, #Hlev, #HrRS, #HfbL, #HrLR2, #HrLS, #HfbR, #HrRR2, Hsr, Her, Hsl, Hel, ⟨Tk1, Tk2, Tk3, Tk4⟩, Ho, Hp, Hk⟩
  have h3 : (3 : ℕ) < 6 := by decide
  have h6 : (6 : ℕ) < 12 := by decide
  have h7 : (7 : ℕ) < 12 := by decide
  iapply (enqR m K c 3 h3 ⟨k0_dev9 c, k0_dev9_lt c⟩ (dev9_rgt c)) $$ [Hsr Her Tk1 Tk2 Ho]
  · isplitr; · iexact Hrec
    isplitr; · iexact HrRS
    isplitr; · iexact HfbL
    isplitr; · rw [fbR_rgt3]; iexact HrLR2
    iframe # ∗
  iintro ⟨Hc1, Ho⟩
  iapply (enqL m K c 3 h3 ⟨k0_dev10 c, k0_dev10_lt c⟩ (dev10_lft c)) $$ [Hsl Hel Tk3 Tk4 Ho]
  · isplitr; · iexact Hrec
    isplitr; · iexact HrLS
    isplitr; · iexact HfbR
    isplitr; · rw [fbL_lft3]; iexact HrRR2
    iframe # ∗
  iintro ⟨Hc2, Ho⟩
  iapply (waitSR m K c 3 h3 (src := slotOf rM 7 h7) (dst := slotOf rM 6 h6) rfl) $$ [Hc1 Hp Ho]
  · iframe # ∗
  iintro ⟨Ho, Hp, #Hr2, Hs6⟩
  rw [wp_ret]; imodintro
  iapply Hk
  iframe # ∗

theorem part19_spec (K : Dev nD × Fin 13 → ℕ) (c : Dev nD) (v2 v5 v8 v19 v30 v571 c4_i32_447 : BitVec 32) (Kt : (Σ' (_ : BitVec 32), BitVec 32) → sProp 𝕄) :
    iprop(records m K ∗ levAts L lv
        ∗ cred (tallyAt (cRR c (sj 3)) 3 N) ∗ atPos ER (cRR c (sj 3)) 1 ∅ 0
        ∗ cred (tallyAt (cLS c (sj 3)) 3 N) ∗ atPos ER (cLS c (sj 3)) 1 ∅ 0
        ∗ cred (tallyAt (cLR c (sj 3)) 3 N) ∗ atPos ER (cLR c (sj 3)) 1 ∅ 0 ∗ owesE c 10
        ∗ (∀ r, (owesE c 10 ∗ atPos ER (cRR c (sj 3)) 2 ∅ 0 ∗ atPos ER (cLS c (sj 3)) 2 ∅ 0 ∗ atPos ER (cLR c (sj 3)) 2 ∅ 0
              ∗ reached ER (cRR c (sj 3)) 2 ∗ reached ER (cLS c (sj 3)) 2 ∗ reached ER (cLR c (sj 3)) 2
              ∗ landed rM c (lft c) 3 (by decide) (rsv m 3 (lft c)) ∗ fbR c 3 ∗ slotE lM c 6 (by decide)
              ∗ landed lM c (rgt c) 3 (by decide) (lsv m 3 (rgt c)) ∗ fbL c 3) -∗ Kt r))
      ⊢ wp frame (wpE (defs₀ (F := F)) 𝒱₀ (c : Thread nD τ) none) Set.univ
          (k0_part19 xM (Memref.isWhole_whole _) oM (Memref.isWhole_whole _) rM (Memref.isWhole_whole _) lM (Memref.isWhole_whole _) aM (Memref.isWhole_whole _) cc0_scratch3 cc0_scratch4 cc0_scratch5 cc0_scratch6 v2 v5 v8 v19 v30 v571 c4_i32_447) Kt := by
  rw [k0_part19_eq_skeleton]; unfold k0_part19_skel
  simp only [Prog.lift, Prog.bind_op, Prog.bind_ret, Prog.pure_eq_ret]
  iintro ⟨#Hrec, #Hlev, Hc1, Hp1, Hc2, Hp2, Hc3, Hp3, Ho, Hk⟩
  have h3 : (3 : ℕ) < 6 := by decide
  have h6 : (6 : ℕ) < 12 := by decide
  have h7 : (7 : ℕ) < 12 := by decide
  iapply (waitRR m K c 3 h3 (src := slotOf rM 6 h6) (dst := slotOf rM 7 h7) rfl) $$ [Hc1 Hp1 Ho]
  · iframe # ∗
  iintro ⟨Ho, Hp1, #Hr1, Hl1, Hf1⟩
  iapply (waitSL m K c 3 h3 (src := slotOf lM 7 h7) (dst := slotOf lM 6 h6) rfl) $$ [Hc2 Hp2 Ho]
  · iframe # ∗
  iintro ⟨Ho, Hp2, #Hr2, Hs6⟩
  iapply (waitRL m K c 3 h3 (src := slotOf lM 6 h6) (dst := slotOf lM 7 h7) rfl) $$ [Hc3 Hp3 Ho]
  · iframe # ∗
  iintro ⟨Ho, Hp3, #Hr3, Hl3, Hf3⟩
  rw [wp_ret]; imodintro
  iapply Hk
  iframe # ∗

theorem part20_spec (c : Dev nD) (v8 v600 c4_i32_475 : BitVec 32) (Kt : BitVec 32 → sProp 𝕄) :
    iprop(outP c (O0 m c) ∗ landed rM c (lft c) 3 (by decide) (rsv m 3 (lft c)) ∗ landed lM c (rgt c) 3 (by decide) (lsv m 3 (rgt c))
        ∗ (∀ r, (outP c (O1 m c) ∗ slotE rM c 7 (by decide) ∗ slotE lM c 7 (by decide)) -∗ Kt r))
      ⊢ wp frame (wpE (defs₀ (F := F)) 𝒱₀ (c : Thread nD τ) none) Set.univ
          (k0_part20 xM (Memref.isWhole_whole _) oM (Memref.isWhole_whole _) rM (Memref.isWhole_whole _) lM (Memref.isWhole_whole _) aM (Memref.isWhole_whole _) cc0_scratch3 cc0_scratch4 cc0_scratch5 cc0_scratch6 c v8 v600 c4_i32_475) Kt := by
  rw [k0_part20_eq_skeleton]; unfold k0_part20_skel
  simp only [Prog.lift, Prog.bind_op, Prog.bind_ret, Prog.pure_eq_ret]
  have h7 : (7 : ℕ) < 12 := by decide
  have h6 : (6 : ℕ) < 12 := by decide
  rw [landed3_eq rM c (lft c) h7 h6, landed3_eq lM c (rgt c) h7 h6]
  unfold outP slotE slotPts
  iintro ⟨Hout, ⟨%fdr, %fr, Hr⟩, ⟨%fdl, %fl, Hl⟩, Hk⟩
  iapply (wp_load 𝒱₀ (c : Thread nD τ) none Set.univ (m := rM) (r := (rectS 7 h7).toLoadRect) (S := (slotOf rM 7 h7).view.set)
    (q := fullShare) (slot_load_sub rM 7 h7)) $$ Hr; iintro Hr
  rw [readAt_landed rM 7 6 h7 h6 fdr fr (rsv m 3 (lft c))]
  iapply (wp_load 𝒱₀ (c : Thread nD τ) none Set.univ (m := oM) (Finset.subset_univ _)) $$ Hout; iintro Hout
  iapply (wp_store 𝒱₀ (c : Thread nD τ) none Set.univ (m := oM) (r := R1 c 0) (Mk := Finset.univ) (Finset.subset_univ _)) $$ Hout; iintro Hout
  iapply (wp_load 𝒱₀ (c : Thread nD τ) none Set.univ (m := lM) (r := (rectS 7 h7).toLoadRect) (S := (slotOf lM 7 h7).view.set)
    (q := fullShare) (slot_load_sub lM 7 h7)) $$ Hl; iintro Hl
  rw [readAt_landed lM 7 6 h7 h6 fdl fl (lsv m 3 (rgt c))]
  iapply (wp_load 𝒱₀ (c : Thread nD τ) none Set.univ (m := oM) (Finset.subset_univ _)) $$ Hout; iintro Hout
  iapply (wp_store 𝒱₀ (c : Thread nD τ) none Set.univ (m := oM) (r := R2 c 0) (Mk := Finset.univ) (Finset.subset_univ _)) $$ Hout; iintro Hout
  rw [wp_ret]; imodintro
  iapply Hk
  isplitl [Hout]; · iexact Hout
  isplitl [Hr]
  · iexists _; iexact Hr
  · iexists _; iexact Hl

end Cert.KernelIdeal.AR

end
-- ==== Proof.BodyS4.lean ====
/- Parts 21 to 25 of the body. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

private theorem load_landed (M : Memref sig .tc .vmem S12x128x512 .bf16) (c d : Dev nD) (t : ℕ) (h : t < 6) (v : FVec F S1x128x512 .bf16)
    {α : Type} {Q : α → sProp 𝕄} {hl : M.view.LoadsAt (rectS (2 * t + 1) (od12 h)).toLoadRect}
    {k : ((rectS (2 * t + 1) (od12 h)).toLoadRect.shape.Idx → Elt F .bf16) → Prog (TpuEff nD τ sig (Elt F) Λ₀ .tc) α} :
    landed M c d t h v
      ⊢ iprop((slotE M c (2 * t + 1) (od12 h) -∗ wp frame (wpE (defs₀ (F := F)) 𝒱₀ (c : Thread nD τ) none) Set.univ (k v) Q)
          -∗ wp frame (wpE (defs₀ (F := F)) 𝒱₀ (c : Thread nD τ) none) Set.univ (.op (.load M (rectS (2 * t + 1) (od12 h)).toLoadRect hl) k) Q) := by
  unfold landed slotE slotPts
  iintro ⟨%fd, %f, H⟩ Hk
  iapply (wp_load 𝒱₀ (c : Thread nD τ) none Set.univ (m := M) (r := (rectS (2 * t + 1) (od12 h)).toLoadRect)
    (S := (slotOf M (2 * t + 1) (od12 h)).view.set) (q := fullShare) (slot_load_sub M (2 * t + 1) (od12 h))) $$ H
  iintro H
  rw [readAt_landed M (2 * t + 1) (2 * t) (od12 h) (ev12 h) fd f v]
  iapply Hk
  iexists _; iexact H

private theorem dev11_eq (c : Dev nD) : (⟨k0_dev11 c, k0_dev11_lt c⟩ : Dev nD) = rgt c := by revert c; decide +kernel
private theorem dev12_eq (c : Dev nD) : (⟨k0_dev12 c, k0_dev12_lt c⟩ : Dev nD) = lft c := by revert c; decide +kernel

private theorem fbR_4 (c : Dev nD) : fbR (F := F) c 4 = iprop(emp) := if_neg (by decide)
private theorem fbL_4 (c : Dev nD) : fbL (F := F) c 4 = iprop(emp) := if_neg (by decide)
private theorem fbR_2 (c : Dev nD) : fbR (F := F) c 2 = reached ER (cLR (lft c) (sj 4)) 1 := if_pos (by decide)
private theorem fbL_2 (c : Dev nD) : fbL (F := F) c 2 = reached ER (cRR (rgt c) (sj 4)) 1 := if_pos (by decide)

private theorem slotE_eq (M : Memref sig .tc .vmem S12x128x512 .bf16) (c : Dev nD) (k : ℕ) (hk : k < 12) :
    slotE (F := F) M c k hk = iprop(∃ f, slotPts M c k hk f) := rfl

theorem part21_spec (c : Dev nD) (v8 c1_i32_498 : BitVec 32) (Kt : Vec F S128x512 .f32 → sProp 𝕄) :
    iprop(outP c (O1 m c) ∗ slotE rM c 8 (by decide)
        ∗ (∀ r, ⌜r = rdO (R6 c 1) (O1 m c)⌝ -∗ (outP c (O1 m c) ∗ stored rM c 4 (by decide) (rsv m 4 c)) -∗ Kt r))
      ⊢ wp frame (wpE (defs₀ (F := F)) 𝒱₀ (c : Thread nD τ) none) Set.univ
          (k0_part21 xM (Memref.isWhole_whole _) oM (Memref.isWhole_whole _) rM (Memref.isWhole_whole _) lM (Memref.isWhole_whole _) aM (Memref.isWhole_whole _) cc0_scratch3 cc0_scratch4 cc0_scratch5 cc0_scratch6 c v8 c1_i32_498) Kt := by
  rw [k0_part21_eq_skeleton]; unfold k0_part21_skel
  simp only [Prog.lift, Prog.bind_op, Prog.bind_ret, Prog.pure_eq_ret]
  unfold outP slotE stored slotPts
  have h8 : (8 : ℕ) < 12 := by decide
  iintro ⟨Hout, ⟨%fr, Hr⟩, Hk⟩
  iapply (wp_load 𝒱₀ (c : Thread nD τ) none Set.univ (m := oM) (Finset.subset_univ _)) $$ Hout; iintro Hout
  iapply (wp_load 𝒱₀ (c : Thread nD τ) none Set.univ (m := rM) (r := (rectS 8 h8).toLoadRect) (S := (slotOf rM 8 h8).view.set) (q := fullShare) (f := fr) (slot_load_sub rM 8 h8)) $$ Hr; iintro Hr
  iapply (wp_store 𝒱₀ (c : Thread nD τ) none Set.univ (m := rM) (r := rectS 8 h8) (Mk := Finset.univ) (S := (slotOf rM 8 h8).view.set) (f := fr) (slot_store_sub rM 8 h8)) $$ Hr; iintro Hr
  iapply (wp_load 𝒱₀ (c : Thread nD τ) none Set.univ (m := oM) (Finset.subset_univ _)) $$ Hout; iintro Hout
  rw [wp_ret]; imodintro
  iapply Hk
  · ipureintro; rfl
  isplitl [Hout]; · iexact Hout
  iexists fr; iexact Hr

theorem part22_spec (K : Dev nD × Fin 13 → ℕ) (c : Dev nD) (v2 v5 v19 v30 : BitVec 32) (v670 : Vec F S128x512 .f32)
    (hv : v670 = rdO (R6 c 1) (O1 m c)) (Kt : PUnit → sProp 𝕄) :
    iprop(records m K ∗ reached ER (cRS c (sj 4)) 1 ∗ fbL c 2
        ∗ slotE lM c 8 (by decide) ∗ stored rM c 4 (by decide) (rsv m 4 c) ∗ slotE rM (rgt c) 9 (by decide)
        ∗ dutyTok ER (cRS c (sj 4)) (rd 4) false ∗ dutyTok ER (cRR (rgt c) (sj 4)) (rd 4) false ∗ owesE c 10
        ∗ ((stored lM c 4 (by decide) (lsv m 4 c) ∗ cred (tallyAt (cRS c (sj 4)) 4 N) ∗ owesE c 11) -∗ Kt ⟨⟩))
      ⊢ wp frame (wpE (defs₀ (F := F)) 𝒱₀ (c : Thread nD τ) none) Set.univ
          (k0_part22 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19 v30 v670) Kt := by
  rw [k0_part22_eq_skeleton]; unfold k0_part22_skel
  simp only [Prog.lift, Prog.bind_op, Prog.bind_ret, Prog.pure_eq_ret]
  subst hv
  have h4 : (4 : ℕ) < 6 := by decide
  have h8 : (8 : ℕ) < 12 := by decide
  rw [fbL_2, slotE_eq lM c 8]
  iintro ⟨#Hrec, #HrRS, #HrRR, ⟨%fl, Hl⟩, Hst, Hdst, Ht1, Ht2, Ho, Hk⟩
  unfold slotPts
  iapply (wp_load 𝒱₀ (c : Thread nD τ) none Set.univ (m := lM) (r := (rectS 8 h8).toLoadRect) (S := (slotOf lM 8 h8).view.set) (q := fullShare) (f := fl) (slot_load_sub lM 8 h8)) $$ Hl; iintro Hl
  iapply (wp_store 𝒱₀ (c : Thread nD τ) none Set.univ (m := lM) (r := rectS 8 h8) (Mk := Finset.univ) (S := (slotOf lM 8 h8).view.set) (f := fl) (slot_store_sub lM 8 h8)) $$ Hl; iintro Hl
  iapply (enqR m K c 4 h4 ⟨k0_dev11 c, k0_dev11_lt c⟩ (dev11_eq c)) $$ [Hst Hdst Ht1 Ht2 Ho]
  · rw [fbR_4]
    iframe # ∗
  iintro ⟨HcRS, Ho⟩
  rw [wp_ret]; imodintro
  iapply Hk
  isplitl [Hl]
  · unfold stored slotPts; iexists fl; iexact Hl
  iframe # ∗

theorem part23_spec (K : Dev nD × Fin 13 → ℕ) (c : Dev nD) (v2 v5 v30 : BitVec 32) (Kt : PUnit → sProp 𝕄) :
    iprop(records m K ∗ levAts L lv ∗ reached ER (cLS c (sj 4)) 1 ∗ fbR c 2
        ∗ stored lM c 4 (by decide) (lsv m 4 c) ∗ slotE lM (lft c) 9 (by decide)
        ∗ dutyTok ER (cLS c (sj 4)) (rd 4) false ∗ dutyTok ER (cLR (lft c) (sj 4)) (rd 4) false ∗ owesE c 11
        ∗ cred (tallyAt (cRS c (sj 4)) 4 N) ∗ atPos ER (cRS c (sj 4)) 1 ∅ 0
        ∗ cred (tallyAt (cRR c (sj 4)) 4 N) ∗ atPos ER (cRR c (sj 4)) 1 ∅ 0 ∗ atPos ER (cLS c (sj 4)) 1 ∅ 0
        ∗ ((owesE c 12
            ∗ atPos ER (cRS c (sj 4)) 2 ∅ 0 ∗ reached ER (cRS c (sj 4)) 2 ∗ slotE rM c 8 (by decide)
            ∗ atPos ER (cRR c (sj 4)) 2 ∅ 0 ∗ reached ER (cRR c (sj 4)) 2 ∗ landed rM c (lft c) 4 (by decide) (rsv m 4 (lft c))
            ∗ atPos ER (cLS c (sj 4)) 2 ∅ 0 ∗ reached ER (cLS c (sj 4)) 2 ∗ slotE lM c 8 (by decide)) -∗ Kt ⟨⟩))
      ⊢ wp frame (wpE (defs₀ (F := F)) 𝒱₀ (c : Thread nD τ) none) Set.univ
          (k0_part23 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v30) Kt := by
  rw [k0_part23_eq_skeleton]; unfold k0_part23_skel
  simp only [Prog.lift, Prog.bind_op, Prog.bind_ret, Prog.pure_eq_ret]
  have h4 : (4 : ℕ) < 6 := by decide
  have h8 : (8 : ℕ) < 12 := by decide
  have h9 : (9 : ℕ) < 12 := by decide
  have hNr8 : (slotOf rM 8 h8).view.dmaCredit = N := rfl
  have hNr9 : (slotOf rM 9 h9).view.dmaCredit = N := rfl
  have hNl8 : (slotOf lM 8 h8).view.dmaCredit = N := rfl
  rw [fbR_2]
  iintro ⟨#Hrec, #Hlev, #HrLS, #HrLR, Hst, Hdst, Ht1, Ht2, Ho, HcRS, HaRS, HcRR, HaRR, HaLS, Hk⟩
  iapply (enqL m K c 4 h4 ⟨k0_dev12 c, k0_dev12_lt c⟩ (dev12_eq c)) $$ [Hst Hdst Ht1 Ht2 Ho]
  · rw [fbL_4]
    iframe # ∗
  iintro ⟨HcLS, Ho⟩
  iapply (waitSR m K c 4 h4 (src := slotOf rM 9 h9) (dst := slotOf rM 8 h8) hNr8) $$ [HcRS HaRS Ho]
  · iframe # ∗
  iintro ⟨Ho, HaRS, #HreRS, HsR⟩
  iapply (waitRR m K c 4 h4 (src := slotOf rM 8 h8) (dst := slotOf rM 9 h9) hNr9) $$ [HcRR HaRR Ho]
  · iframe # ∗
  rw [fbR_4]
  iintro ⟨Ho, HaRR, #HreRR, Hld, -⟩
  iapply (waitSL m K c 4 h4 (src := slotOf lM 9 h9) (dst := slotOf lM 8 h8) hNl8) $$ [HcLS HaLS Ho]
  · iframe # ∗
  iintro ⟨Ho, HaLS, #HreLS, HsL⟩
  rw [wp_ret]; imodintro
  iapply Hk
  iframe # ∗

theorem part24_spec (K : Dev nD × Fin 13 → ℕ) (c : Dev nD) (v2 v5 v8 v19 : BitVec 32)
    (Kt : (Σ' (v750 : BitVec 32) (v754 : BitVec 32) (v759 : BitVec 1), BitVec 32) → sProp 𝕄) :
    iprop(records m K ∗ levAts L lv ∗ cred (tallyAt (cLR c (sj 4)) 4 N) ∗ atPos ER (cLR c (sj 4)) 1 ∅ 0 ∗ owesE c 12
        ∗ (∀ r, (owesE c 12 ∗ atPos ER (cLR c (sj 4)) 2 ∅ 0 ∗ reached ER (cLR c (sj 4)) 2
            ∗ landed lM c (rgt c) 4 (by decide) (lsv m 4 (rgt c))) -∗ Kt r))
      ⊢ wp frame (wpE (defs₀ (F := F)) 𝒱₀ (c : Thread nD τ) none) Set.univ
          (k0_part24 xM (Memref.isWhole_whole _) oM (Memref.isWhole_whole _) rM (Memref.isWhole_whole _) lM (Memref.isWhole_whole _) aM (Memref.isWhole_whole _) cc0_scratch3 cc0_scratch4 cc0_scratch5 cc0_scratch6 v2 v5 v8 v19) Kt := by
  rw [k0_part24_eq_skeleton]; unfold k0_part24_skel
  simp only [Prog.lift, Prog.bind_op, Prog.bind_ret, Prog.pure_eq_ret]
  have h4 : (4 : ℕ) < 6 := by decide
  have h8 : (8 : ℕ) < 12 := by decide
  have h9 : (9 : ℕ) < 12 := by decide
  have hN : (slotOf lM 9 h9).view.dmaCredit = N := rfl
  iintro ⟨#Hrec, #Hlev, Hcr, Hat, Ho, Hk⟩
  iapply (waitRL m K c 4 h4 (src := slotOf lM 8 h8) (dst := slotOf lM 9 h9) hN) $$ [Hcr Hat Ho]
  · iframe # ∗
  rw [fbL_4]
  iintro ⟨Ho, Hat, #Hre, Hld, -⟩
  rw [wp_ret]; imodintro
  iapply Hk
  iframe # ∗

theorem part25_spec (c : Dev nD) (v8 v750 v754 : BitVec 32) (v759 : BitVec 1) (v760 : BitVec 32)
    (Kt : (Σ' (v786 : BitVec 32) (v790 : BitVec 32) (v791 : BitVec 32) (v792 : BitVec 1), BitVec 32) → sProp 𝕄) :
    iprop(outP c (O1 m c) ∗ landed rM c (lft c) 4 (by decide) (rsv m 4 (lft c)) ∗ landed lM c (rgt c) 4 (by decide) (lsv m 4 (rgt c))
        ∗ (∀ r, (outP c (O2 m c) ∗ slotE rM c 9 (by decide) ∗ slotE lM c 9 (by decide)) -∗ Kt r))
      ⊢ wp frame (wpE (defs₀ (F := F)) 𝒱₀ (c : Thread nD τ) none) Set.univ
          (k0_part25 xM (Memref.isWhole_whole _) oM (Memref.isWhole_whole _) rM (Memref.isWhole_whole _) lM (Memref.isWhole_whole _) aM (Memref.isWhole_whole _) cc0_scratch3 cc0_scratch4 cc0_scratch5 cc0_scratch6 c v8 v750 v754 v759 v760) Kt := by
  rw [k0_part25_eq_skeleton]; unfold k0_part25_skel
  simp only [Prog.lift, Prog.bind_op, Prog.bind_ret, Prog.pure_eq_ret]
  unfold outP
  have h4 : (4 : ℕ) < 6 := by decide
  iintro ⟨Hout, Hr, Hl, Hk⟩
  iapply (load_landed rM c (lft c) 4 h4 (rsv m 4 (lft c))) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) (k0_off1 c 1#32) S128x512.size (k0_off1_inb c 1)) (Mk := Finset.univ) (Finset.subset_univ _)) $$ Hout; iintro Hout
  iapply (load_landed lM c (rgt c) 4 h4 (lsv m 4 (rgt c))) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) (k0_off2 c 1#32) S128x512.size (k0_off2_inb c 1)) (Mk := Finset.univ) (Finset.subset_univ _)) $$ Hout; iintro Hout
  rw [wp_ret]; imodintro
  iapply Hk
  iframe # ∗
  iexact Hout

end Cert.KernelIdeal.AR

end
-- ==== Proof.BodyS5.lean ====
/- Parts 26 to 28 of the body and its tail. -/
import proofs.«900731_g7700000000000732_dist_ar_v7x_xyz2x4x4_z_m1024_n512_bf16_1_alg».proof.Proof.BodyDefs

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem dev13_eq (c : Dev nD) : (⟨k0_dev13 c, k0_dev13_lt c⟩ : Dev nD) = rgt c := by revert c; decide +kernel
theorem dev14_eq (c : Dev nD) : (⟨k0_dev14 c, k0_dev14_lt c⟩ : Dev nD) = lft c := by revert c; decide +kernel

theorem part26_spec (c : Dev nD) (v2 v5 v30 v786 v790 v791 : BitVec 32) (v792 : BitVec 1) (c0_i32_626 : BitVec 32) (Kt : PUnit → sProp 𝕄) :
    iprop(outP c (O2 m c) ∗ slotE rM c 10 (by decide) ∗ slotE lM c 10 (by decide)
        ∗ ((outP c (O2 m c) ∗ stored rM c 5 (by decide) (rsv m 5 c) ∗ stored lM c 5 (by decide) (lsv m 5 c)) -∗ Kt ⟨⟩))
      ⊢ wp frame (wpE (defs₀ (F := F)) 𝒱₀ (c : Thread nD τ) none) Set.univ
          (k0_part26 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v30 v786 v790 v791 v792 c0_i32_626) Kt := by
  rw [k0_part26_eq_skeleton]; unfold k0_part26_skel
  simp only [Prog.lift, Prog.bind_op, Prog.bind_ret, Prog.pure_eq_ret]
  unfold outP slotE stored slotPts
  iintro ⟨Hout, ⟨%fr, Hr⟩, ⟨%fl, Hl⟩, Hk⟩
  have h10 : (10 : ℕ) < 12 := by decide
  iapply (wp_load 𝒱₀ (c : Thread nD τ) none Set.univ (m := oM) (Finset.subset_univ _)) $$ Hout; iintro Hout
  iapply (wp_load 𝒱₀ (c : Thread nD τ) none Set.univ (m := rM) (r := (rectS 10 h10).toLoadRect) (S := (slotOf rM 10 h10).view.set)
    (q := fullShare) (f := fr) (slot_load_sub rM 10 h10)) $$ Hr; iintro Hr
  iapply (wp_store 𝒱₀ (c : Thread nD τ) none Set.univ (m := rM) (r := rectS 10 h10) (Mk := Finset.univ) (S := (slotOf rM 10 h10).view.set)
    (f := fr) (slot_store_sub rM 10 h10)) $$ Hr; iintro Hr
  iapply (wp_load 𝒱₀ (c : Thread nD τ) none Set.univ (m := oM) (Finset.subset_univ _)) $$ Hout; iintro Hout
  iapply (wp_load 𝒱₀ (c : Thread nD τ) none Set.univ (m := lM) (r := (rectS 10 h10).toLoadRect) (S := (slotOf lM 10 h10).view.set)
    (q := fullShare) (f := fl) (slot_load_sub lM 10 h10)) $$ Hl; iintro Hl
  iapply (wp_store 𝒱₀ (c : Thread nD τ) none Set.univ (m := lM) (r := rectS 10 h10) (Mk := Finset.univ) (S := (slotOf lM 10 h10).view.set)
    (f := fl) (slot_store_sub lM 10 h10)) $$ Hl; iintro Hl
  rw [wp_ret]; imodintro
  iapply Hk
  isplitl [Hout]; · iexact Hout
  isplitl [Hr]
  · iexists fr; iexact Hr
  · iexists fl; iexact Hl

theorem part27_spec (K : Dev nD × Fin 13 → ℕ) (c : Dev nD) (v2 v5 v19 v30 : BitVec 32) (Kt : (Σ' (v853 : BitVec 32), BitVec 32) → sProp 𝕄) :
    iprop(records m K ∗ levAts L lv
        ∗ reached ER (cRS c (sj 5)) 1 ∗ fbL c 3 ∗ reached ER (cLS c (sj 5)) 1 ∗ fbR c 3
        ∗ stored rM c 5 (by decide) (rsv m 5 c) ∗ slotE rM (rgt c) 11 (by decide)
        ∗ stored lM c 5 (by decide) (lsv m 5 c) ∗ slotE lM (lft c) 11 (by decide)
        ∗ stepToks c 5 ∗ owesE c 12 ∗ atPos ER (cRS c (sj 5)) 1 ∅ 0
        ∗ (∀ r, (owesE c 14 ∗ cred (tallyAt (cLS c (sj 5)) 5 N) ∗ atPos ER (cRS c (sj 5)) 2 ∅ 0 ∗ reached ER (cRS c (sj 5)) 2
              ∗ slotE rM c 10 (by decide)) -∗ Kt r))
      ⊢ wp frame (wpE (defs₀ (F := F)) 𝒱₀ (c : Thread nD τ) none) Set.univ
          (k0_part27 xM (Memref.isWhole_whole _) oM (Memref.isWhole_whole _) rM (Memref.isWhole_whole _) lM (Memref.isWhole_whole _) aM (Memref.isWhole_whole _) cc0_scratch3 cc0_scratch4 cc0_scratch5 cc0_scratch6 c v2 v5 v19 v30) Kt := by
  rw [k0_part27_eq_skeleton]; unfold k0_part27_skel
  simp only [Prog.lift, Prog.bind_op, Prog.bind_ret, Prog.pure_eq_ret]
  have h5 : (5 : ℕ) < 6 := by decide
  have h10 : (10 : ℕ) < 12 := by decide
  have eL : fbL (F := F) c 3 = reached ER (cRR (rgt c) (sj 5)) 1 := if_pos (by decide)
  have eR : fbR (F := F) c 3 = reached ER (cLR (lft c) (sj 5)) 1 := if_pos (by decide)
  have eR5 : fbR (F := F) (rgt c) 5 = iprop(emp) := if_neg (by decide)
  have eL5 : fbL (F := F) (lft c) 5 = iprop(emp) := if_neg (by decide)
  rw [eL, eR]
  unfold stepToks
  iintro ⟨#Hrec, #Hlev, HrRS, HrRR, HrLS, HrLR, Hsr, Hdr, Hsl, Hdl, ⟨Ht1, Ht2, Ht3, Ht4⟩, HO, Hat, Hk⟩
  iapply (enqR m K c 5 h5 (⟨k0_dev13 c, k0_dev13_lt c⟩ : Dev nD) (dev13_eq c)) $$ [HrRS HrRR Hsr Hdr Ht1 Ht2 HO]
  · isplitr; · iexact Hrec
    isplitl [HrRS]; · iexact HrRS
    isplitl [HrRR]; · iexact HrRR
    isplitr; · rw [eR5]; iempintro
    iframe # ∗
  iintro ⟨Hc1, HO⟩
  iapply (enqL m K c 5 h5 (⟨k0_dev14 c, k0_dev14_lt c⟩ : Dev nD) (dev14_eq c)) $$ [HrLS HrLR Hsl Hdl Ht3 Ht4 HO]
  · isplitr; · iexact Hrec
    isplitl [HrLS]; · iexact HrLS
    isplitl [HrLR]; · iexact HrLR
    isplitr; · rw [eL5]; iempintro
    iframe # ∗
  iintro ⟨Hc2, HO⟩
  iapply (waitSR m K c 5 h5 (dst := slotOf rM 10 h10) rfl) $$ [Hc1 Hat HO]
  · iframe # ∗
  iintro ⟨HO, Hat, Hr, Hs⟩
  rw [wp_ret]; imodintro
  iapply Hk
  iframe # ∗

theorem part28_spec (K : Dev nD × Fin 13 → ℕ) (c : Dev nD) (v2 v5 v8 v19 v853 v854 : BitVec 32) (Kt : (Σ' (v880 : BitVec 32), BitVec 32) → sProp 𝕄) :
    iprop(records m K ∗ levAts L lv
        ∗ cred (tallyAt (cRR c (sj 5)) 5 N) ∗ atPos ER (cRR c (sj 5)) 1 ∅ 0
        ∗ cred (tallyAt (cLS c (sj 5)) 5 N) ∗ atPos ER (cLS c (sj 5)) 1 ∅ 0
        ∗ cred (tallyAt (cLR c (sj 5)) 5 N) ∗ atPos ER (cLR c (sj 5)) 1 ∅ 0 ∗ owesE c 14
        ∗ (∀ r, (owesE c 14 ∗ atPos ER (cRR c (sj 5)) 2 ∅ 0 ∗ atPos ER (cLS c (sj 5)) 2 ∅ 0 ∗ atPos ER (cLR c (sj 5)) 2 ∅ 0
              ∗ reached ER (cRR c (sj 5)) 2 ∗ reached ER (cLS c (sj 5)) 2 ∗ reached ER (cLR c (sj 5)) 2
              ∗ landed rM c (lft c) 5 (by decide) (rsv m 5 (lft c)) ∗ slotE lM c 10 (by decide)
              ∗ landed lM c (rgt c) 5 (by decide) (lsv m 5 (rgt c))) -∗ Kt r))
      ⊢ wp frame (wpE (defs₀ (F := F)) 𝒱₀ (c : Thread nD τ) none) Set.univ
          (k0_part28 xM (Memref.isWhole_whole _) oM (Memref.isWhole_whole _) rM (Memref.isWhole_whole _) lM (Memref.isWhole_whole _) aM (Memref.isWhole_whole _) cc0_scratch3 cc0_scratch4 cc0_scratch5 cc0_scratch6 v2 v5 v8 v19 v853 v854) Kt := by
  rw [k0_part28_eq_skeleton]; unfold k0_part28_skel
  simp only [Prog.lift, Prog.bind_op, Prog.bind_ret, Prog.pure_eq_ret]
  have h5 : (5 : ℕ) < 6 := by decide
  have h10 : (10 : ℕ) < 12 := by decide
  have h11 : (11 : ℕ) < 12 := by decide
  have eR5 : fbR (F := F) c 5 = iprop(emp) := if_neg (by decide)
  have eL5 : fbL (F := F) c 5 = iprop(emp) := if_neg (by decide)
  iintro ⟨#Hrec, #Hlev, Hc1, Hat1, Hc2, Hat2, Hc3, Hat3, HO, Hk⟩
  iapply (waitRR m K c 5 h5 (dst := slotOf rM 11 h11) rfl) $$ [Hc1 Hat1 HO]
  · iframe # ∗
  rw [eR5]
  iintro ⟨HO, Hat1, Hr1, Hland1, -⟩
  iapply (waitSL m K c 5 h5 (dst := slotOf lM 10 h10) rfl) $$ [Hc2 Hat2 HO]
  · iframe # ∗
  iintro ⟨HO, Hat2, Hr2, Hs2⟩
  iapply (waitRL m K c 5 h5 (dst := slotOf lM 11 h11) rfl) $$ [Hc3 Hat3 HO]
  · iframe # ∗
  rw [eL5]
  iintro ⟨HO, Hat3, Hr3, Hland3, -⟩
  rw [wp_ret]; imodintro
  iapply Hk
  iframe # ∗

def tailK (r : Σ' (d0 : Dev nD) (v890 : BitVec 32), BitVec 32) : Prog (TpuEff nD τ sig (Elt F) Λ₀ .tc) PUnit :=
  match r with
  | ⟨d0, v890, v901⟩ => do
    let v902 : Vec F S1x128x512 .bf16 ← Prog.lift (.load rM (Rect.unit (s := S12x128x512) ![11, 0, 0] S1x128x512.size inb_S12x128x512_S1x128x512_11_0_0).toLoadRect (View.loadsAt_vmem h_S1x128x512))
    let v907 : Vec F S128x512 .f32 ← Prog.lift (.load oM (Rect.unit (s := S1024x512) (k0_off1 d0 2#32) S128x512.size (k0_off1_inb d0 2)).toLoadRect (View.loadsAt_vmem h_S128x512))
    Prog.lift (.store oM (Rect.unit (s := S1024x512) (k0_off1 d0 2#32) S128x512.size (k0_off1_inb d0 2)) (k0_pay1 v902) Finset.univ (View.stores_vmem_bits_univ h_S128x512 rfl) (.inl rfl))
    let v908 : Vec F S1x128x512 .bf16 ← Prog.lift (.load lM (Rect.unit (s := S12x128x512) ![11, 0, 0] S1x128x512.size inb_S12x128x512_S1x128x512_11_0_0).toLoadRect (View.loadsAt_vmem h_S1x128x512))
    let v914 : Vec F S128x512 .f32 ← Prog.lift (.load oM (Rect.unit (s := S1024x512) (k0_off2 d0 2#32) S128x512.size (k0_off2_inb d0 2)).toLoadRect (View.loadsAt_vmem h_S128x512))
    Prog.lift (.store oM (Rect.unit (s := S1024x512) (k0_off2 d0 2#32) S128x512.size (k0_off2_inb d0 2)) (k0_pay2 v908) Finset.univ (View.stores_vmem_bits_univ h_S128x512 rfl) (.inl rfl))
    pure ⟨⟩

theorem body_skel_eq :
    cc0_body_skel (F := F) xM (Memref.isWhole_whole _) oM (Memref.isWhole_whole _) rM (Memref.isWhole_whole _) lM (Memref.isWhole_whole _) aM (Memref.isWhole_whole _) cc0_scratch3 cc0_scratch4 cc0_scratch5 cc0_scratch6
      = (k0_part29 xM (Memref.isWhole_whole _) oM (Memref.isWhole_whole _) rM (Memref.isWhole_whole _) lM (Memref.isWhole_whole _) aM (Memref.isWhole_whole _) cc0_scratch3 cc0_scratch4 cc0_scratch5 cc0_scratch6 >>= tailK) := rfl

theorem tail_spec (c : Dev nD) (w1 w2 : BitVec 32) (Kt : PUnit → sProp 𝕄) :
    iprop(outP c (O2 m c) ∗ landed rM c (lft c) 5 (by decide) (rsv m 5 (lft c)) ∗ landed lM c (rgt c) 5 (by decide) (lsv m 5 (rgt c))
        ∗ ((outP c (O3 m c) ∗ slotE rM c 11 (by decide) ∗ slotE lM c 11 (by decide)) -∗ Kt ⟨⟩))
      ⊢ wp frame (wpE (defs₀ (F := F)) 𝒱₀ (c : Thread nD τ) none) Set.univ (tailK (F := F) ⟨c, w1, w2⟩) Kt := by
  unfold tailK
  simp only [Prog.lift, Prog.bind_op, Prog.bind_ret, Prog.pure_eq_ret]
  have h10 : (10 : ℕ) < 12 := by decide
  have h11 : (11 : ℕ) < 12 := by decide
  unfold outP landed slotE slotPts
  iintro ⟨Hout, ⟨%fdr, %fr, Hr⟩, ⟨%fdl, %fl, Hl⟩, Hk⟩
  iapply (wp_load 𝒱₀ (c : Thread nD τ) none Set.univ (m := rM) (r := (rectS 11 h11).toLoadRect) (S := (slotOf rM 11 h11).view.set)
    (q := fullShare) (slot_load_sub rM 11 h11)) $$ Hr; iintro Hr
  rw [readAt_landed rM 11 10 h11 h10 fdr fr (rsv m 5 (lft c))]
  iapply (wp_load 𝒱₀ (c : Thread nD τ) none Set.univ (m := oM) (Finset.subset_univ _)) $$ Hout; iintro Hout
  iapply (wp_store 𝒱₀ (c : Thread nD τ) none Set.univ (m := oM) (r := R1 c 2) (Mk := Finset.univ) (Finset.subset_univ _)) $$ Hout; iintro Hout
  iapply (wp_load 𝒱₀ (c : Thread nD τ) none Set.univ (m := lM) (r := (rectS 11 h11).toLoadRect) (S := (slotOf lM 11 h11).view.set)
    (q := fullShare) (slot_load_sub lM 11 h11)) $$ Hl; iintro Hl
  rw [readAt_landed lM 11 10 h11 h10 fdl fl (lsv m 5 (rgt c))]
  iapply (wp_load 𝒱₀ (c : Thread nD τ) none Set.univ (m := oM) (Finset.subset_univ _)) $$ Hout; iintro Hout
  iapply (wp_store 𝒱₀ (c : Thread nD τ) none Set.univ (m := oM) (r := R2 c 2) (Mk := Finset.univ) (Finset.subset_univ _)) $$ Hout; iintro Hout
  rw [wp_ret]; imodintro
  iapply Hk
  isplitl [Hout]; · iexact Hout
  isplitl [Hr]
  · iexists _; iexact Hr
  · iexists _; iexact Hl

end Cert.KernelIdeal.AR

end
-- ==== Proof.SlotSplit.lean ====
/- A twelve-slot buffer is the disjoint union of its slots: split and join. -/
import proofs.«900731_g7700000000000732_dist_ar_v7x_xyz2x4x4_z_m1024_n512_bf16_1_alg».proof.Proof.ViewLemmas

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem lt12 {k : ℕ} (h : decide (k < 12) = true) : k < 12 := of_decide_eq_true h

theorem slot_disjoint (M : Memref sig .tc .vmem S12x128x512 .bf16) (k k' : ℕ) (hk : k < 12) (hk' : k' < 12) (h : k ≠ k') :
    Disjoint (slotOf M k hk).view.set (slotOf M k' hk').view.set := by
  rw [slotOf_set, slotOf_set, Finset.disjoint_map]
  refine Rect.unit_disjoint (0 : Fin 3) ?_
  show k + 1 ≤ k' ∨ k' + 1 ≤ k
  omega

theorem slots_cover (M : Memref sig .tc .vmem S12x128x512 .bf16) :
    (Finset.univ : Finset (Fin 12)).biUnion (fun k => (slotOf M k.val k.isLt).view.set) = M.view.set := by
  ext i
  rw [Finset.mem_biUnion]
  constructor
  · rintro ⟨k, -, hi⟩
    rw [slotOf_set] at hi
    obtain ⟨x, -, rfl⟩ := Finset.mem_map.mp hi
    exact M.view.emb_mem_set x
  · intro hi
    obtain ⟨x, -, rfl⟩ := Finset.mem_map.mp hi
    have h0 : (x (0 : Fin 3)).val < 12 := (x (0 : Fin 3)).isLt
    have h1 : (x (1 : Fin 3)).val < 128 := (x (1 : Fin 3)).isLt
    have h2 : (x (2 : Fin 3)).val < 512 := (x (2 : Fin 3)).isLt
    refine ⟨⟨(x (0 : Fin 3)).val, h0⟩, Finset.mem_univ _, ?_⟩
    rw [slotOf_set]
    refine Finset.mem_map_of_mem _ ?_
    rw [Rect.mem_set_unit]
    intro a; fin_cases a
    · show (x (0 : Fin 3)).val ≤ (x (0 : Fin 3)).val ∧ (x (0 : Fin 3)).val < (x (0 : Fin 3)).val + 1; omega
    · show 0 ≤ (x (1 : Fin 3)).val ∧ (x (1 : Fin 3)).val < 0 + 128; omega
    · show 0 ≤ (x (2 : Fin 3)).val ∧ (x (2 : Fin 3)).val < 0 + 512; omega

theorem bigSep_fin12 {R : Type} [URA R] (Φ : Fin 12 → sProp R) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_insert (by decide), bigSep_insert (by decide), bigSep_singleton]
  rfl

theorem slots_bigSep (M : Memref sig .tc .vmem S12x128x512 .bf16) (hM : M.view.set = Finset.univ) (c : Dev nD)
    (f : Buf (Elt F) (M.view.loc (c : Thread nD τ))) :
    ((M.view.loc (c : Thread nD τ)) ↦{fullShare} f : sProp 𝕄)
      = bigSep Finset.univ (fun k : Fin 12 => slotPts M c k.val k.isLt f) := by
  have h := pointsTo_biUnion (Name := ℕ) (U := UU) (Lvl := ℕ) (Ix := ℕ) (ℓ := M.view.loc (c : Thread nD τ)) (q := fullShare) (f := f)
    (Finset.univ : Finset (Fin 12)) (fun k => (slotOf M k.val k.isLt).view.set)
    (fun t _ t' _ h => slot_disjoint M _ _ _ _ (fun e => h (Fin.ext e)))
  have hc := slots_cover M
  rw [hM] at hc
  unfold slotPts
  refine Eq.trans ?_ h
  exact congrArg (fun S => ((M.view.loc (c : Thread nD τ)) ↦[S]{fullShare} f : sProp 𝕄)) hc.symm

theorem slots_split_of (M : Memref sig .tc .vmem S12x128x512 .bf16) (hM : M.view.set = Finset.univ) (c : Dev nD)
    (f : Buf (Elt F) (M.view.loc (c : Thread nD τ))) :
    ((M.view.loc (c : Thread nD τ)) ↦{fullShare} f : sProp 𝕄) ⊢
      iprop(slotPts M c 0 (lt12 rfl) f ∗ slotPts M c 1 (lt12 rfl) f ∗ slotPts M c 2 (lt12 rfl) f ∗ slotPts M c 3 (lt12 rfl) f
        ∗ slotPts M c 4 (lt12 rfl) f ∗ slotPts M c 5 (lt12 rfl) f ∗ slotPts M c 6 (lt12 rfl) f ∗ slotPts M c 7 (lt12 rfl) f
        ∗ slotPts M c 8 (lt12 rfl) f ∗ slotPts M c 9 (lt12 rfl) f ∗ slotPts M c 10 (lt12 rfl) f ∗ slotPts M c 11 (lt12 rfl) f) := by
  rw [slots_bigSep M hM c f, bigSep_fin12]
  exact .refl

theorem slots_join_at (M : Memref sig .tc .vmem S12x128x512 .bf16) (hM : M.view.set = Finset.univ) (c : Dev nD)
    (f0 f1 f2 f3 f4 f5 f6 f7 f8 f9 f10 f11 : Buf (Elt F) (M.view.loc (c : Thread nD τ))) :
    iprop(slotPts M c 0 (lt12 rfl) f0 ∗ slotPts M c 1 (lt12 rfl) f1 ∗ slotPts M c 2 (lt12 rfl) f2 ∗ slotPts M c 3 (lt12 rfl) f3
        ∗ slotPts M c 4 (lt12 rfl) f4 ∗ slotPts M c 5 (lt12 rfl) f5 ∗ slotPts M c 6 (lt12 rfl) f6 ∗ slotPts M c 7 (lt12 rfl) f7
        ∗ slotPts M c 8 (lt12 rfl) f8 ∗ slotPts M c 9 (lt12 rfl) f9 ∗ slotPts M c 10 (lt12 rfl) f10 ∗ slotPts M c 11 (lt12 rfl) f11)
      ⊢ (iprop(∃ g, (M.view.loc (c : Thread nD τ)) ↦{fullShare} g) : sProp 𝕄) := by
  have hj := pointsTo_biUnion_join (Name := ℕ) (U := UU) (Lvl := ℕ) (Ix := ℕ) (ℓ := M.view.loc (c : Thread nD τ)) (q := fullShare)
    (Finset.univ : Finset (Fin 12)) (fun k => (slotOf M k.val k.isLt).view.set)
    ![f0, f1, f2, f3, f4, f5, f6, f7, f8, f9, f10, f11] f0
    (fun t _ t' _ h => slot_disjoint M _ _ _ _ (fun e => h (Fin.ext e)))
  have hc := slots_cover M
  rw [hM] at hc
  rw [bigSep_fin12] at hj
  refine BIBase.Entails.trans (BIBase.Entails.trans ?_ hj) ?_
  · exact .refl
  · iintro ⟨%g, %hg, H⟩
    iexists g
    exact Entails.of_eq (congrArg (fun S => ((M.view.loc (c : Thread nD τ)) ↦[S]{fullShare} g : sProp 𝕄)) hc)

theorem slots_join_of (M : Memref sig .tc .vmem S12x128x512 .bf16) (hM : M.view.set = Finset.univ) (c : Dev nD) :
    (iprop((∃ f, slotPts M c 0 (lt12 rfl) f) ∗ (∃ f, slotPts M c 1 (lt12 rfl) f) ∗ (∃ f, slotPts M c 2 (lt12 rfl) f)
        ∗ (∃ f, slotPts M c 3 (lt12 rfl) f) ∗ (∃ f, slotPts M c 4 (lt12 rfl) f) ∗ (∃ f, slotPts M c 5 (lt12 rfl) f)
        ∗ (∃ f, slotPts M c 6 (lt12 rfl) f) ∗ (∃ f, slotPts M c 7 (lt12 rfl) f) ∗ (∃ f, slotPts M c 8 (lt12 rfl) f)
        ∗ (∃ f, slotPts M c 9 (lt12 rfl) f) ∗ (∃ f, slotPts M c 10 (lt12 rfl) f) ∗ (∃ f, slotPts M c 11 (lt12 rfl) f)) : sProp 𝕄)
      ⊢ iprop(∃ g, (M.view.loc (c : Thread nD τ)) ↦{fullShare} g) := by
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩,
    ⟨%f10, H10⟩, ⟨%f11, H11⟩⟩
  iapply (slots_join_at M hM c f0 f1 f2 f3 f4 f5 f6 f7 f8 f9 f10 f11)
  iframe # ∗

theorem slots_split_r (c : Dev nD) (f : Buf (Elt F) ((c : Thread nD τ).loc cc0_scratch0)) :
    (((c : Thread nD τ).loc cc0_scratch0) ↦{fullShare} f : sProp 𝕄) ⊢
      iprop(slotPts rM c 0 (lt12 rfl) f ∗ slotPts rM c 1 (lt12 rfl) f ∗ slotPts rM c 2 (lt12 rfl) f ∗ slotPts rM c 3 (lt12 rfl) f
        ∗ slotPts rM c 4 (lt12 rfl) f ∗ slotPts rM c 5 (lt12 rfl) f ∗ slotPts rM c 6 (lt12 rfl) f ∗ slotPts rM c 7 (lt12 rfl) f
        ∗ slotPts rM c 8 (lt12 rfl) f ∗ slotPts rM c 9 (lt12 rfl) f ∗ slotPts rM c 10 (lt12 rfl) f ∗ slotPts rM c 11 (lt12 rfl) f) :=
  slots_split_of rM (View.set_whole cc0_scratch0) c f

theorem slots_split_l (c : Dev nD) (f : Buf (Elt F) ((c : Thread nD τ).loc cc0_scratch1)) :
    (((c : Thread nD τ).loc cc0_scratch1) ↦{fullShare} f : sProp 𝕄) ⊢
      iprop(slotPts lM c 0 (lt12 rfl) f ∗ slotPts lM c 1 (lt12 rfl) f ∗ slotPts lM c 2 (lt12 rfl) f ∗ slotPts lM c 3 (lt12 rfl) f
        ∗ slotPts lM c 4 (lt12 rfl) f ∗ slotPts lM c 5 (lt12 rfl) f ∗ slotPts lM c 6 (lt12 rfl) f ∗ slotPts lM c 7 (lt12 rfl) f
        ∗ slotPts lM c 8 (lt12 rfl) f ∗ slotPts lM c 9 (lt12 rfl) f ∗ slotPts lM c 10 (lt12 rfl) f ∗ slotPts lM c 11 (lt12 rfl) f) :=
  slots_split_of lM (View.set_whole cc0_scratch1) c f

theorem slots_join_r (c : Dev nD) :
    (iprop((∃ f, slotPts rM c 0 (lt12 rfl) f) ∗ (∃ f, slotPts rM c 1 (lt12 rfl) f) ∗ (∃ f, slotPts rM c 2 (lt12 rfl) f)
        ∗ (∃ f, slotPts rM c 3 (lt12 rfl) f) ∗ (∃ f, slotPts rM c 4 (lt12 rfl) f) ∗ (∃ f, slotPts rM c 5 (lt12 rfl) f)
        ∗ (∃ f, slotPts rM c 6 (lt12 rfl) f) ∗ (∃ f, slotPts rM c 7 (lt12 rfl) f) ∗ (∃ f, slotPts rM c 8 (lt12 rfl) f)
        ∗ (∃ f, slotPts rM c 9 (lt12 rfl) f) ∗ (∃ f, slotPts rM c 10 (lt12 rfl) f) ∗ (∃ f, slotPts rM c 11 (lt12 rfl) f)) : sProp 𝕄)
      ⊢ iprop(∃ f, ((c : Thread nD τ).loc cc0_scratch0) ↦{fullShare} f) :=
  slots_join_of rM (View.set_whole cc0_scratch0) c

theorem slots_join_l (c : Dev nD) :
    (iprop((∃ f, slotPts lM c 0 (lt12 rfl) f) ∗ (∃ f, slotPts lM c 1 (lt12 rfl) f) ∗ (∃ f, slotPts lM c 2 (lt12 rfl) f)
        ∗ (∃ f, slotPts lM c 3 (lt12 rfl) f) ∗ (∃ f, slotPts lM c 4 (lt12 rfl) f) ∗ (∃ f, slotPts lM c 5 (lt12 rfl) f)
        ∗ (∃ f, slotPts lM c 6 (lt12 rfl) f) ∗ (∃ f, slotPts lM c 7 (lt12 rfl) f) ∗ (∃ f, slotPts lM c 8 (lt12 rfl) f)
        ∗ (∃ f, slotPts lM c 9 (lt12 rfl) f) ∗ (∃ f, slotPts lM c 10 (lt12 rfl) f) ∗ (∃ f, slotPts lM c 11 (lt12 rfl) f)) : sProp 𝕄)
      ⊢ iprop(∃ f, ((c : Thread nD τ).loc cc0_scratch1) ↦{fullShare} f) :=
  slots_join_of lM (View.set_whole cc0_scratch1) c

end Cert.KernelIdeal.AR

end
-- ==== Proof.Body.lean ====
/- One device's whole body: the parts in sequence, each on the resources it touches. -/
import proofs.«900731_g7700000000000732_dist_ar_v7x_xyz2x4x4_z_m1024_n512_bf16_1_alg».proof.Proof.Body03
import proofs.«900731_g7700000000000732_dist_ar_v7x_xyz2x4x4_z_m1024_n512_bf16_1_alg».proof.Proof.BodyS0
import proofs.«900731_g7700000000000732_dist_ar_v7x_xyz2x4x4_z_m1024_n512_bf16_1_alg».proof.Proof.BodyS0b
import proofs.«900731_g7700000000000732_dist_ar_v7x_xyz2x4x4_z_m1024_n512_bf16_1_alg».proof.Proof.BodyS0c
import proofs.«900731_g7700000000000732_dist_ar_v7x_xyz2x4x4_z_m1024_n512_bf16_1_alg».proof.Proof.BodyS0d
import proofs.«900731_g7700000000000732_dist_ar_v7x_xyz2x4x4_z_m1024_n512_bf16_1_alg».proof.Proof.BodyS1
import proofs.«900731_g7700000000000732_dist_ar_v7x_xyz2x4x4_z_m1024_n512_bf16_1_alg».proof.Proof.BodyS1b
import proofs.«900731_g7700000000000732_dist_ar_v7x_xyz2x4x4_z_m1024_n512_bf16_1_alg».proof.Proof.BodyS2
import proofs.«900731_g7700000000000732_dist_ar_v7x_xyz2x4x4_z_m1024_n512_bf16_1_alg».proof.Proof.BodyS3
import proofs.«900731_g7700000000000732_dist_ar_v7x_xyz2x4x4_z_m1024_n512_bf16_1_alg».proof.Proof.BodyS4
import proofs.«900731_g7700000000000732_dist_ar_v7x_xyz2x4x4_z_m1024_n512_bf16_1_alg».proof.Proof.BodyS5
import proofs.«900731_g7700000000000732_dist_ar_v7x_xyz2x4x4_z_m1024_n512_bf16_1_alg».proof.Proof.SlotSplit

noncomputable section

namespace Cert.KernelIdeal.AR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (K : Dev nD × Fin 13 → ℕ)

macro "ipre " h:ident : tactic => `(tactic| (isplitl [$h:ident]; · iexact $h))
macro "ipers " h:ident : tactic => `(tactic| (isplitr; · iexact $h))
macro "islot " h:ident : tactic => `(tactic| (isplitl [$h:ident]; · (unfold slotE; iexists _; iexact $h)))

theorem fetch_0 (t : Fin cfg0.N) : (cfg0.win (0 : Fin 2)).fetch t = true := by rw [fin_N t]; rfl

theorem part1_spec (c : Dev nD)
    (Kt : (Σ' (d0 : Dev nD) (v2 : BitVec 32) (v5 : BitVec 32) (v8 : BitVec 32) (v19 : BitVec 32) (v30 : BitVec 32) (v31 : Sems sig S_) (v33 : BitVec 32), BitVec 32) → sProp 𝕄) :
    iprop(∀ r, ⌜c = r.1 ∧ (SemArray.scalar (sig.barrier 0 rfl) : Sems sig S_) = r.2.2.2.2.2.2.1⌝ -∗ Kt r)
      ⊢ wp frame (wpE (defs₀ (F := F)) 𝒱₀ (c : Thread nD τ) none) Set.univ (k0_part1 xM (Memref.isWhole_whole _) oM (Memref.isWhole_whole _) rM (Memref.isWhole_whole _) lM (Memref.isWhole_whole _) aM (Memref.isWhole_whole _) cc0_scratch3 cc0_scratch4 cc0_scratch5 cc0_scratch6) Kt := by
  rw [k0_part1_eq_skeleton]; unfold k0_part1_skel
  simp only [Prog.lift, Prog.bind_op, Prog.bind_ret, Prog.pure_eq_ret, wp_deviceId, wp_ret]
  iintro H
  imodintro
  iapply H
  ipureintro
  exact ⟨rfl, rfl⟩

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ (cc0_body xM (Memref.isWhole_whole _) oM (Memref.isWhole_whole _) rM (Memref.isWhole_whole _) lM (Memref.isWhole_whole _) aM (Memref.isWhole_whole _) cc0_scratch3 cc0_scratch4 cc0_scratch5 cc0_scratch6) Kt := by
  rw [cc0_body_eq_skeleton, body_skel_eq, wp_bind]
  rw [k0_part29_eq_skeleton]; unfold k0_part29_skel
  unfold bodyPre ghost creds payToks posAll stepCred stepToks
  rw [bigSep_fin13]
  iintro ⟨⟨⟨⟨#Hrec, ⟨HpB, HpRS0, HpRS1, HpRS2, HpRR0, HpRR1, HpRR2, HpLS0, HpLS1, HpLS2, HpLR0, HpLR1, HpLR2⟩, ⟨HtB, ⟨HtRS0, HtRR0, HtLS0, HtLR0⟩, ⟨HtRS1, HtRR1, HtLS1, HtLR1⟩, ⟨HtRS2, HtRR2, HtLS2, HtLR2⟩, ⟨HtRS3, HtRR3, HtLS3, HtLR3⟩, ⟨HtRS4, HtRR4, HtLS4, HtLR4⟩, ⟨HtRS5, HtRR5, HtLS5, HtLR5⟩⟩⟩,
      ⟨HcB, ⟨HcRR0, HcLR0⟩, ⟨HcRR1, HcLR1⟩, ⟨HcRR2, HcLR2⟩, ⟨HcRR3, HcLR3⟩, ⟨HcRR4, HcLR4⟩, ⟨HcRR5, HcLR5⟩⟩, #Hlev, ⟨%fr, Hr⟩, ⟨%fl, Hl⟩, Hacc⟩,
      Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  ihave Hrs := (slots_split_r c fr) $$ Hr
  ihave Hls := (slots_split_l c fl) $$ Hl
  icases Hrs with ⟨Hr0, Hr1, Hr2, Hr3, Hr4, Hr5, Hr6, Hr7, Hr8, Hr9, Hr10, Hr11⟩
  icases Hls with ⟨Hl0, Hl1, Hl2, Hl3, Hl4, Hl5, Hl6, Hl7, Hl8, Hl9, Hl10, Hl11⟩

  rw [wp_bind]
  iapply (part1_spec c)
  iintro %r %hr
  obtain ⟨d0', v2, v5, v8, v19, v30, v31, v33, v34⟩ := r
  obtain ⟨hd, hv31⟩ := hr
  dsimp only at hd hv31
  subst hd; subst hv31
  dsimp only

  rw [wp_bind]
  iapply (part2_spec m K c v2 v5 v8 v19 v30 v33 v34)
  ipers Hrec; ipers Hlev; ipre HtB
  isplitl [Hr1 Hr3 Hr5 Hr7 Hr9 Hr11]
  · unfold oddSlots
    islot Hr1; islot Hr3; islot Hr5; islot Hr7; islot Hr9
    unfold slotE; iexists _; iexact Hr11
  isplitl [Hl1 Hl3 Hl5 Hl7 Hl9 Hl11]
  · unfold oddSlots
    islot Hl1; islot Hl3; islot Hl5; islot Hl7; islot Hl9
    unfold slotE; iexists _; iexact Hl11
  isplitl [HO]; · (unfold owesE; iexists W; iexact HO)
  ipre HcB; ipre HpB
  isplitl [Hx]; · (unfold xP; iexact Hx)
  isplitl [Hacc]; · (unfold accP; iexact Hacc)
  iintro %r2 ⟨HO, HpB, HoR, HoL, Hx, Hacc⟩
  unfold oddSlots
  icases HoR with ⟨HR1, HR3, HR5, HR7, HR9, HR11⟩
  icases HoL with ⟨HL1, HL3, HL5, HL7, HL9, HL11⟩

  rw [wp_bind]
  iapply (part3_spec m c)
  ipre Hacc; islot Hr0; islot Hl0
  iintro ⟨Hacc, Hsr, Hsl⟩

  rw [wp_bind]
  iapply (part4_spec m K c)
  ipers Hrec; ipers Hlev; ipre Hsr; ipre HR1; ipre Hsl; ipre HL1
  isplitl [HtRS0 HtRR0 HtLS0 HtLR0]; · (unfold stepToks; ipre HtRS0; ipre HtRR0; ipre HtLS0; iexact HtLR0)
  ipre HO; ipre HpRS0
  iintro ⟨HO, HcLS, HpRS0, #HrRS0, Hr0⟩

  rw [wp_bind]
  iapply (part5_spec m K c)
  ipers Hrec; ipers Hlev; ipre HcRR0; ipre HpRR0; ipre HcLS; ipre HpLS0; ipre HcLR0; ipre HpLR0; ipre HO
  iintro %r5 ⟨HO, HpRR0, #HrRR0, Hld_r, HfbR0, HpLS0, #HrLS0, Hl0, HpLR0, #HrLR0, Hld_l, HfbL0⟩

  rw [wp_bind]
  iapply (part6_spec m c)
  ipre Hacc; ipre Hld_r; ipre Hld_l
  iintro %r6 %hr6 ⟨Hacc, Hr1, Hl1⟩
  obtain ⟨v186, v188, v190⟩ := r6
  obtain ⟨hv188, hv190⟩ := hr6
  dsimp only at hv188 hv190 ⊢

  rw [wp_bind]
  iapply (part7_spec m c v8 v186 v188 v190 hv188 hv190)
  ipre Hacc; islot Hr2
  iintro %r7 ⟨Hacc, Hsr⟩

  rw [wp_bind]
  iapply (part8_spec m K c)
  ipers Hrec; ipers HrLR0; ipre Hacc; islot Hl2; ipre Hsr; ipre HR3; ipre HtRS1; ipre HtRR1; ipre HO
  iintro ⟨Hacc, Hsl, HcRS, HO⟩

  rw [wp_bind]
  iapply (part9_spec m K c)
  ipers Hrec; ipers Hlev; ipers HrRR0; ipre Hsl; ipre HL3; ipre HtLS1; ipre HtLR1; ipre HO; ipre HcRS; ipre HpRS1; ipre HcRR1; ipre HpRR1
  iintro ⟨HO, HcLS, HpRS1, #HrRS1, Hr2, HpRR1, #HrRR1, Hld_r, HfbR1⟩

  rw [wp_bind]
  iapply (part10_spec m K c)
  ipers Hrec; ipers Hlev; ipre HcLS; ipre HpLS1; ipre HcLR1; ipre HpLR1; ipre HO
  iintro %r10 ⟨HO, HpLS1, #HrLS1, Hl2, HpLR1, #HrLR1, Hld_l, HfbL1⟩

  rw [wp_bind]
  iapply (part11_spec m c)
  ipre Hacc; ipre Hld_r; ipre Hld_l
  iintro %r11 ⟨Hacc, Hr3, Hl3⟩

  rw [wp_bind]
  iapply (part12_spec m c)
  ipre Hacc; islot Hr4; islot Hl4
  iintro %r12 ⟨Hacc, Hsr, Hsl⟩

  rw [wp_bind]
  iapply (part13_spec m K c)
  ipers Hrec; ipers Hlev; ipers HrLR1; ipers HrRR1; ipre Hsr; ipre HR5; ipre Hsl; ipre HL5
  isplitl [HtRS2 HtRR2 HtLS2 HtLR2]; · (unfold stepToks; ipre HtRS2; ipre HtRR2; ipre HtLS2; iexact HtLR2)
  ipre HO; ipre HpRS2
  iintro ⟨HO, HcLS, HpRS2, #HrRS2, Hr4⟩

  rw [wp_bind]
  iapply (part14_spec m K c)
  ipers Hrec; ipers Hlev; ipre HcRR2; ipre HcLS; ipre HpRR2; ipre HpLS2; ipre HO
  iintro ⟨HO, HpRR2, #HrRR2, Hld_r, HfbR2, HpLS2, #HrLS2, Hl4⟩

  rw [wp_bind]
  iapply (part15_spec m K c)
  ipers Hrec; ipers Hlev; ipre HcLR2; ipre HpLR2; ipre HO; ipre Hacc; ipre Hld_r
  iintro %r15 %hr15 ⟨HO, HpLR2, #HrLR2, Hld_l, HfbL2, Hacc, Hr5⟩
  obtain ⟨v469, v476⟩ := r15
  dsimp only at hr15 ⊢

  rw [wp_bind]
  iapply (part16_spec m c v8 v469 v476 hr15)
  ipre Hacc; ipre Hld_l
  isplitl [Hout]; · (unfold outP; iexists g1; iexact Hout)
  iintro %r16 ⟨Hacc, Hout, Hl5⟩

  rw [wp_bind]
  iapply (part17_spec m c)
  ipre Hout; islot Hr6; islot Hl6
  iintro ⟨Hout, Hsr, Hsl⟩

  rw [wp_bind]
  iapply (part18_spec m K c)
  ipers Hrec; ipers Hlev; ipers HrRS0; ipre HfbL1; ipers HrLR2; ipers HrLS0; ipre HfbR1; ipers HrRR2
  ipre Hsr; ipre HR7; ipre Hsl; ipre HL7
  isplitl [HtRS3 HtRR3 HtLS3 HtLR3]; · (unfold stepToks; ipre HtRS3; ipre HtRR3; ipre HtLS3; iexact HtLR3)
  ipre HO; ipre HpRS0
  iintro %r18 ⟨HO, HcLS, HpRS0, #HrRS3, Hr6⟩

  rw [wp_bind]
  iapply (part19_spec m K c)
  ipers Hrec; ipers Hlev; ipre HcRR3; ipre HpRR0; ipre HcLS; ipre HpLS0; ipre HcLR3; ipre HpLR0; ipre HO
  iintro %r19 ⟨HO, HpRR0, HpLS0, HpLR0, #HrRR3, #HrLS3, #HrLR3, Hld_r, HfbR3, Hl6, Hld_l, HfbL3⟩

  rw [wp_bind]
  iapply (part20_spec m c)
  ipre Hout; ipre Hld_r; ipre Hld_l
  iintro %r20 ⟨Hout, Hr7, Hl7⟩

  rw [wp_bind]
  iapply (part21_spec m c)
  ipre Hout; islot Hr8
  iintro %r21 %hr21 ⟨Hout, Hsr⟩

  rw [wp_bind]
  iapply (part22_spec m K c v2 v5 v19 v30 r21 hr21)
  ipers Hrec; ipers HrRS1; ipre HfbL2; islot Hl8; ipre Hsr; ipre HR9; ipre HtRS4; ipre HtRR4; ipre HO
  iintro ⟨Hsl, HcRS, HO⟩

  rw [wp_bind]
  iapply (part23_spec m K c)
  ipers Hrec; ipers Hlev; ipers HrLS1; ipre HfbR2; ipre Hsl; ipre HL9; ipre HtLS4; ipre HtLR4; ipre HO
  ipre HcRS; ipre HpRS1; ipre HcRR4; ipre HpRR1; ipre HpLS1
  iintro ⟨HO, HpRS1, #HrRS4, Hr8, HpRR1, #HrRR4, Hld_r, HpLS1, #HrLS4, Hl8⟩

  rw [wp_bind]
  iapply (part24_spec m K c)
  ipers Hrec; ipers Hlev; ipre HcLR4; ipre HpLR1; ipre HO
  iintro %r24 ⟨HO, HpLR1, #HrLR4, Hld_l⟩

  rw [wp_bind]
  iapply (part25_spec m c)
  ipre Hout; ipre Hld_r; ipre Hld_l
  iintro %r25 ⟨Hout, Hr9, Hl9⟩

  rw [wp_bind]
  iapply (part26_spec m c)
  ipre Hout; islot Hr10; islot Hl10
  iintro ⟨Hout, Hsr, Hsl⟩

  rw [wp_bind]
  iapply (part27_spec m K c)
  ipers Hrec; ipers Hlev; ipers HrRS2; ipre HfbL3; ipers HrLS2; ipre HfbR3
  ipre Hsr; ipre HR11; ipre Hsl; ipre HL11
  isplitl [HtRS5 HtRR5 HtLS5 HtLR5]; · (unfold stepToks; ipre HtRS5; ipre HtRR5; ipre HtLS5; iexact HtLR5)
  ipre HO; ipre HpRS2
  iintro %r27 ⟨HO, HcLS, HpRS2, #HrRS5, Hr10⟩

  rw [wp_bind]
  iapply (part28_spec m K c)
  ipers Hrec; ipers Hlev; ipre HcRR5; ipre HpRR2; ipre HcLS; ipre HpLS2; ipre HcLR5; ipre HpLR2; ipre HO
  iintro %r28 ⟨HO, HpRR2, HpLS2, HpLR2, #HrRR5, #HrLS5, #HrLR5, Hld_r, Hl10, Hld_l⟩

  simp only [Prog.pure_eq_ret, wp_ret]
  imodintro

  imod (closeOwn m K c) $$ [HpRS0 HpRS1 HpRS2 HpRR0 HpRR1 HpRR2 HpLS0 HpLS1 HpLS2 HpLR0 HpLR1 HpLR2] with Hz
  · isplitr; · iexact Hrec
    rw [bigSep_fin12]
    ipre HpRS0; ipre HpRS1; ipre HpRS2; ipre HpRR0; ipre HpRR1; ipre HpRR2; ipre HpLS0; ipre HpLS1; ipre HpLS2; ipre HpLR0; ipre HpLR1
    iexact HpLR2
  iapply (tail_spec m c)
  ipre Hout; ipre Hld_r; ipre Hld_l
  iintro ⟨Hout, Hr11, Hl11⟩
  iapply Hk
  unfold bodyPost Φ₁ Dat.owesAt Pipeline.owesWithin
  unfold slotE accP xP outP
  isplitl [Hr0 Hr1 Hr2 Hr3 Hr4 Hr5 Hr6 Hr7 Hr8 Hr9 Hr10 Hr11 Hl0 Hl1 Hl2 Hl3 Hl4 Hl5 Hl6 Hl7 Hl8 Hl9 Hl10 Hl11 Hacc Hz]
  · isplitr [Hz]
    · isplitl [Hr0 Hr1 Hr2 Hr3 Hr4 Hr5 Hr6 Hr7 Hr8 Hr9 Hr10 Hr11]
      · iapply (slots_join_r c)
        ipre Hr0; ipre Hr1; ipre Hr2; ipre Hr3; ipre Hr4; ipre Hr5; ipre Hr6; ipre Hr7; ipre Hr8; ipre Hr9; ipre Hr10
        iexact Hr11
      isplitr [Hacc]
      · iapply (slots_join_l c)
        ipre Hl0; ipre Hl1; ipre Hl2; ipre Hl3; ipre Hl4; ipre Hl5; ipre Hl6; ipre Hl7; ipre Hl8; ipre Hl9; ipre Hl10
        iexact Hl11
      · iexists (A3 m c); iexact Hacc
    · iexact Hz
  isplitl [HO]
  · ihave HO' := (Entails.of_eq (show owesE c 14 = (iprop(∃ W : Waits sig ℕ, owes (c : Thread nD τ) (owedFrom c 14) W) : sProp 𝕄) from rfl)) $$ HO
    icases HO' with ⟨%W', HO⟩
    iexists W'
    isplitr; · (ipureintro; exact fun _ _ => Or.inl trivial)
    iexact HO
  isplitl [Hx]
  · iexists _; isplitr; · (ipureintro; rfl)
    iexact Hx
  iexists _; isplitr; · (ipureintro; rfl)
  iexact Hout

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt 0 t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 16384 in
set_option maxHeartbeats 3200000 in

theorem body_obligation (c : Dev nD) : BodyObligation (dats (F := F) m 0 c) (defs₀ (F := F)) 𝒱₀ 0 Set.univ := fun t => by
  rw [fin_N t]
  rw [bigSep_W0, bigSep_W0]
  simp only [owns_whole_eq]
  show bodyPre' m c ⊢ wp frame (wpE (defs₀ (F := F)) 𝒱₀ (c : Thread nD τ) none) Set.univ (cc0_body xM (Memref.isWhole_whole _) oM (Memref.isWhole_whole _) rM (Memref.isWhole_whole _) lM (Memref.isWhole_whole _) aM (Memref.isWhole_whole _) cc0_scratch3 cc0_scratch4 cc0_scratch5 cc0_scratch6) (fun _ => bodyPost m c)
  unfold bodyPre' Φ₀ start
  iintro ⟨⟨⟨⟨%K, Hg⟩, Hcr, Hlev⟩, Hs0, Hs1, Hs2⟩, Ho, Hx, Hout⟩
  iapply (sound_body m K c fun _ => bodyPost m c)
  unfold bodyPre
  isplitr []
  · isplitl [Hg Hcr Hlev Hs0 Hs1 Hs2]
    · ipre Hg; ipre Hcr; ipre Hlev; ipre Hs0; ipre Hs1
      iexact Hs2
    ipre Ho; ipre Hx
    iexact Hout
  · iintro H; iexact H

/-- info: 'Cert.KernelIdeal.AR.body_obligation' depends on axioms: [propext, Classical.choice, Quot.sound] -/
#guard_msgs in #print axioms body_obligation

end Cert.KernelIdeal.AR

end
-- ==== Proof.Value.lean ====
/- At the ideal instance every chunk of the result is the sum of the four devices' chunks: each reduce-scatter step adds a neighbour's partial sum,
   each all-gather step copies a finished chunk. -/
import proofs.«900731_g7700000000000732_dist_ar_v7x_xyz2x4x4_z_m1024_n512_bf16_1_alg».proof.Proof.Vals
import Idealize.ShloMosaic.PureOps.Ideal
import Idealize.ShloMosaic.Lib.Pipeline.Value
import Idealize.ShloMosaic.Lib.ValueIdx

noncomputable section

namespace Cert.KernelIdeal.AR

open Cert.KernelIdeal Cert.KernelIdeal.Gen
open Idealize.ShloMosaic Idealize.ShloMosaic.TcCoe
open Idealize.SL.Sem
open Idealize.ShloMosaic.ValueIdx

namespace Value

def c1 (z s : ℕ) : ℕ := (z + 4 - s) % 4
def c2 (z s : ℕ) : ℕ := 4 + (z + s) % 4
def c3 (z s : ℕ) : ℕ := (z + 3 - s) % 4
def c4 (z s : ℕ) : ℕ := 4 + (z + s + 1) % 4
def c5 (z s : ℕ) : ℕ := (z + 5 - s) % 4
def c6 (z s : ℕ) : ℕ := 4 + (z + 3 + s) % 4

theorem off1_eq : ∀ c : Dev nD, ∀ s : Fin 3, k0_off1 c (BitVec.ofNat 32 s.val) = ![128 * c1 (c.val % 4) s.val, 0] := by decide +kernel
theorem off2_eq : ∀ c : Dev nD, ∀ s : Fin 3, k0_off2 c (BitVec.ofNat 32 s.val) = ![128 * c2 (c.val % 4) s.val, 0] := by decide +kernel
theorem off3_eq : ∀ c : Dev nD, ∀ s : Fin 3, k0_off3 c (BitVec.ofNat 32 s.val) = ![128 * c3 (c.val % 4) s.val, 0] := by decide +kernel
theorem off4_eq : ∀ c : Dev nD, ∀ s : Fin 3, k0_off4 c (BitVec.ofNat 32 s.val) = ![128 * c4 (c.val % 4) s.val, 0] := by decide +kernel
theorem off5_eq : ∀ c : Dev nD, ∀ s : Fin 3, k0_off5 c (BitVec.ofNat 32 s.val) = ![128 * c5 (c.val % 4) s.val, 0] := by decide +kernel
theorem off6_eq : ∀ c : Dev nD, ∀ s : Fin 3, k0_off6 c (BitVec.ofNat 32 s.val) = ![128 * c6 (c.val % 4) s.val, 0] := by decide +kernel

theorem c1_lt (z s : ℕ) : c1 z s < 8 := by unfold c1; omega
theorem c2_lt (z s : ℕ) : c2 z s < 8 := by unfold c2; omega
theorem c3_lt (z s : ℕ) : c3 z s < 8 := by unfold c3; omega
theorem c4_lt (z s : ℕ) : c4 z s < 8 := by unfold c4; omega
theorem c5_lt (z s : ℕ) : c5 z s < 8 := by unfold c5; omega
theorem c6_lt (z s : ℕ) : c6 z s < 8 := by unfold c6; omega

theorem lft_mod (c : Dev nD) : (lft c).val % 4 = (c.val % 4 + 3) % 4 := by revert c; decide
theorem rgt_mod (c : Dev nD) : (rgt c).val % 4 = (c.val % 4 + 1) % 4 := by revert c; decide

theorem off1_0 (c : Dev nD) : k0_off1 c (BitVec.ofNat 32 (0 : Fin 3).val) = ![128 * c1 (c.val % 4) 0, 0] := off1_eq c 0
theorem off1_1 (c : Dev nD) : k0_off1 c (BitVec.ofNat 32 (1 : Fin 3).val) = ![128 * c1 (c.val % 4) 1, 0] := off1_eq c 1
theorem off1_2 (c : Dev nD) : k0_off1 c (BitVec.ofNat 32 (2 : Fin 3).val) = ![128 * c1 (c.val % 4) 2, 0] := off1_eq c 2
theorem off2_0 (c : Dev nD) : k0_off2 c (BitVec.ofNat 32 (0 : Fin 3).val) = ![128 * c2 (c.val % 4) 0, 0] := off2_eq c 0
theorem off2_1 (c : Dev nD) : k0_off2 c (BitVec.ofNat 32 (1 : Fin 3).val) = ![128 * c2 (c.val % 4) 1, 0] := off2_eq c 1
theorem off2_2 (c : Dev nD) : k0_off2 c (BitVec.ofNat 32 (2 : Fin 3).val) = ![128 * c2 (c.val % 4) 2, 0] := off2_eq c 2
theorem off3_0 (c : Dev nD) : k0_off3 c (BitVec.ofNat 32 (0 : Fin 3).val) = ![128 * c3 (c.val % 4) 0, 0] := off3_eq c 0
theorem off3_1 (c : Dev nD) : k0_off3 c (BitVec.ofNat 32 (1 : Fin 3).val) = ![128 * c3 (c.val % 4) 1, 0] := off3_eq c 1
theorem off3_2 (c : Dev nD) : k0_off3 c (BitVec.ofNat 32 (2 : Fin 3).val) = ![128 * c3 (c.val % 4) 2, 0] := off3_eq c 2
theorem off4_0 (c : Dev nD) : k0_off4 c (BitVec.ofNat 32 (0 : Fin 3).val) = ![128 * c4 (c.val % 4) 0, 0] := off4_eq c 0
theorem off4_1 (c : Dev nD) : k0_off4 c (BitVec.ofNat 32 (1 : Fin 3).val) = ![128 * c4 (c.val % 4) 1, 0] := off4_eq c 1
theorem off4_2 (c : Dev nD) : k0_off4 c (BitVec.ofNat 32 (2 : Fin 3).val) = ![128 * c4 (c.val % 4) 2, 0] := off4_eq c 2
theorem off5_0 (c : Dev nD) : k0_off5 c (BitVec.ofNat 32 (0 : Fin 3).val) = ![128 * c5 (c.val % 4) 0, 0] := off5_eq c 0
theorem off5_1 (c : Dev nD) : k0_off5 c (BitVec.ofNat 32 (1 : Fin 3).val) = ![128 * c5 (c.val % 4) 1, 0] := off5_eq c 1
theorem off5_2 (c : Dev nD) : k0_off5 c (BitVec.ofNat 32 (2 : Fin 3).val) = ![128 * c5 (c.val % 4) 2, 0] := off5_eq c 2
theorem off6_0 (c : Dev nD) : k0_off6 c (BitVec.ofNat 32 (0 : Fin 3).val) = ![128 * c6 (c.val % 4) 0, 0] := off6_eq c 0
theorem off6_1 (c : Dev nD) : k0_off6 c (BitVec.ofNat 32 (1 : Fin 3).val) = ![128 * c6 (c.val % 4) 1, 0] := off6_eq c 1
theorem off6_2 (c : Dev nD) : k0_off6 c (BitVec.ofNat 32 (2 : Fin 3).val) = ![128 * c6 (c.val % 4) 2, 0] := off6_eq c 2

theorem readAt_whole_unit {κ : Kind} (Val : EltTy → Type) (b : Ref sig κ) (off size : Fin b.ty.shape.rank → Nat)
    (inb : ∀ a, off a + size a ≤ b.ty.shape.size a) (f : b.ty.Contents Val)
    (x : (Rect.unit off size inb).shape.Idx) (k : b.ty.shape.Idx) (hk : ∀ a, (k a).val = off a + (x a).val) :
    (Memref.whole b).view.readAt Val (Rect.unit off size inb).toLoadRect f x = f k := by
  rw [View.readAt_apply, View.read_apply]
  show f _ = f k
  congr 1
  funext a
  apply Fin.ext
  rw [hk a]
  show off a + 1 * (x a).val = _
  omega

theorem write_whole_unit_mem {κ : Kind} (Val : EltTy → Type) (b : Ref sig κ) (off size : Fin b.ty.shape.rank → Nat)
    (inb : ∀ a, off a + size a ≤ b.ty.shape.size a) (f : b.ty.Contents Val)
    (w : (Rect.unit off size inb).shape.Idx → Val b.ty.elt)
    (i : b.ty.shape.Idx) (x : (Rect.unit off size inb).shape.Idx) (hx : ∀ a, (i a).val = off a + (x a).val) :
    ((Memref.whole b).access (Rect.unit off size inb)).write Val f w Finset.univ i = w x := by
  show ((View.whole b).slice (Rect.unit off size inb)).write Val f w Finset.univ i = w x
  rw [View.write_whole_slice_unit]
  unfold updateSlice
  split
  · next hin =>
    congr 1
    funext a
    apply Fin.ext
    have := hx a
    show (i a).val - off a = (x a).val
    omega
  · next hout =>
    refine absurd (fun a => ?_) hout
    have h1 := hx a
    have h2 : (x a).val < size a := (x a).isLt
    refine ⟨by omega, ?_⟩
    show (i a).val < off a + size a
    omega

theorem write_whole_unit_not_mem {κ : Kind} (Val : EltTy → Type) (b : Ref sig κ) (off size : Fin b.ty.shape.rank → Nat)
    (inb : ∀ a, off a + size a ≤ b.ty.shape.size a) (f : b.ty.Contents Val)
    (w : (Rect.unit off size inb).shape.Idx → Val b.ty.elt)
    (i : b.ty.shape.Idx) (a : Fin b.ty.shape.rank) (ha : (i a).val < off a ∨ off a + size a ≤ (i a).val) :
    ((Memref.whole b).access (Rect.unit off size inb)).write Val f w Finset.univ i = f i := by
  show ((View.whole b).slice (Rect.unit off size inb)).write Val f w Finset.univ i = f i
  rw [View.write_whole_slice_unit]
  unfold updateSlice
  split
  · next hin =>
    exfalso
    have h3 : (i a).val < off a + size a := (hin a).2
    have h4 := (hin a).1
    omega
  · rfl

def cix (k : ℕ) (j : S128x512.Idx) : S1024x512.Idx :=
  ix2 ⟨(128 * k + (j 0).val) % 1024, Nat.mod_lt _ (by decide)⟩ (j 1)

theorem cix_val0 (k : ℕ) (hk : k < 8) (j : S128x512.Idx) : (cix k j 0).val = 128 * k + (j 0).val := by
  show (128 * k + (j 0).val) % 1024 = _
  have := idx2_lt0 j; omega

section chunks
variable {F : FTy → Type} [FloatOps F]

theorem rdA_chk (off : Fin 2 → ℕ) (inb : ∀ a, off a + S128x512.size a ≤ S1024x512.size a) (k : ℕ) (hk : k < 8) (hoff : off = ![128 * k, 0])
    (f : CA (F := F)) (j : S128x512.Idx) :
    rdA (Rect.unit (s := S1024x512) off S128x512.size inb) f j = f (cix k j) := by
  subst hoff
  refine readAt_whole_unit (Elt F) cc0_scratch2 _ _ _ f j (cix k j) (fun a => ?_)
  match a with
  | ⟨0, _⟩ => exact cix_val0 k hk j
  | ⟨1, _⟩ => show (j 1).val = 0 + (j 1).val; omega

theorem wrA_chk_same (off : Fin 2 → ℕ) (inb : ∀ a, off a + S128x512.size a ≤ S1024x512.size a) (k : ℕ) (hk : k < 8) (hoff : off = ![128 * k, 0])
    (f : CA (F := F)) (w : S128x512.Idx → Elt F .f32) (j : S128x512.Idx) :
    wrA (Rect.unit (s := S1024x512) off S128x512.size inb) f w (cix k j) = w j := by
  subst hoff
  refine write_whole_unit_mem (Elt F) cc0_scratch2 _ _ _ f w (cix k j) j (fun a => ?_)
  match a with
  | ⟨0, _⟩ => exact cix_val0 k hk j
  | ⟨1, _⟩ => show (j 1).val = 0 + (j 1).val; omega

theorem wrA_chk_other (off : Fin 2 → ℕ) (inb : ∀ a, off a + S128x512.size a ≤ S1024x512.size a) (k k' : ℕ) (hk : k < 8) (hk' : k' < 8) (hne : k' ≠ k)
    (hoff : off = ![128 * k, 0]) (f : CA (F := F)) (w : S128x512.Idx → Elt F .f32) (j : S128x512.Idx) :
    wrA (Rect.unit (s := S1024x512) off S128x512.size inb) f w (cix k' j) = f (cix k' j) := by
  subst hoff
  refine write_whole_unit_not_mem (Elt F) cc0_scratch2 _ _ _ f w (cix k' j) 0 ?_
  rw [cix_val0 k' hk' j]
  have := idx2_lt0 j
  show 128 * k' + (j 0).val < 128 * k ∨ 128 * k + 128 ≤ 128 * k' + (j 0).val
  omega

end chunks

section chunks2
variable {F : FTy → Type} [FloatOps F]

theorem wrA_chk (off : Fin 2 → ℕ) (inb : ∀ a, off a + S128x512.size a ≤ S1024x512.size a) (t : ℕ) (ht : t < 8) (hoff : off = ![128 * t, 0])
    (f : CA (F := F)) (w : S128x512.Idx → Elt F .f32) (k : ℕ) (hk : k < 8) (j : S128x512.Idx) :
    wrA (Rect.unit (s := S1024x512) off S128x512.size inb) f w (cix k j) = if k = t then w j else f (cix k j) := by
  split
  · next h => subst h; exact wrA_chk_same off inb k hk hoff f w j
  · next h => exact wrA_chk_other off inb t k ht hk h hoff f w j

end chunks2

section chunksO
variable {F : FTy → Type} [FloatOps F]

theorem rdO_chk (off : Fin 2 → ℕ) (inb : ∀ a, off a + S128x512.size a ≤ S1024x512.size a) (k : ℕ) (hk : k < 8) (hoff : off = ![128 * k, 0])
    (f : CO (F := F)) (j : S128x512.Idx) :
    rdO (Rect.unit (s := S1024x512) off S128x512.size inb) f j = f (cix k j) := by
  subst hoff
  refine readAt_whole_unit (Elt F) cc0_stg1_0 _ _ _ f j (cix k j) (fun a => ?_)
  match a with
  | ⟨0, _⟩ => exact cix_val0 k hk j
  | ⟨1, _⟩ => show (j 1).val = 0 + (j 1).val; omega

theorem wrO_chk (off : Fin 2 → ℕ) (inb : ∀ a, off a + S128x512.size a ≤ S1024x512.size a) (t : ℕ) (ht : t < 8) (hoff : off = ![128 * t, 0])
    (f : CO (F := F)) (w : S128x512.Idx → Elt F .f32) (k : ℕ) (hk : k < 8) (j : S128x512.Idx) :
    wrO (Rect.unit (s := S1024x512) off S128x512.size inb) f w (cix k j) = if k = t then w j else f (cix k j) := by
  subst hoff
  split
  · next h =>
    subst h
    refine write_whole_unit_mem (Elt F) cc0_stg1_0 _ _ _ f w (cix k j) j (fun a => ?_)
    match a with
    | ⟨0, _⟩ => exact cix_val0 k hk j
    | ⟨1, _⟩ => show (j 1).val = 0 + (j 1).val; omega
  · next h =>
    refine write_whole_unit_not_mem (Elt F) cc0_stg1_0 _ _ _ f w (cix k j) 0 ?_
    rw [cix_val0 k hk j]
    have := idx2_lt0 j
    show 128 * k + (j 0).val < 128 * t ∨ 128 * t + 128 ≤ 128 * k + (j 0).val
    omega

end chunksO

section payloads

theorem pay3_id (v : S1024x512.Idx → EReal) : k0_pay3 (F := Ideal) v = v := by
  unfold k0_pay3; simp only [shapeCast_self]

theorem pay6_pay4 (a v : S128x512.Idx → EReal) : k0_pay6 (F := Ideal) a (k0_pay4 (F := Ideal) v) = fun j => a j + v j := by
  unfold k0_pay6 k0_pay4
  simp only [shapeCast_self, shapeCast_shapeCast]
  rfl

theorem pay8_pay7_pay5 (a v : S128x512.Idx → EReal) : k0_pay8 (F := Ideal) a (k0_pay7 (F := Ideal) (k0_pay5 (F := Ideal) v)) = fun j => a j + v j := by
  unfold k0_pay8 k0_pay7 k0_pay5
  simp only [shapeCast_self, shapeCast_shapeCast]
  rfl

theorem pay11_pay9 (a v : S128x512.Idx → EReal) : k0_pay11 (F := Ideal) a (k0_pay9 (F := Ideal) v) = fun j => a j + v j := by
  unfold k0_pay11 k0_pay9
  simp only [shapeCast_self, shapeCast_shapeCast]
  rfl

theorem pay12_pay10 (a v : S128x512.Idx → EReal) : k0_pay12 (F := Ideal) a (k0_pay10 (F := Ideal) v) = fun j => a j + v j := by
  unfold k0_pay12 k0_pay10
  simp only [shapeCast_self, shapeCast_shapeCast]
  rfl

theorem pay16_pay15_pay13 (a v : S128x512.Idx → EReal) : k0_pay16 (F := Ideal) (k0_pay15 (F := Ideal) a (k0_pay13 (F := Ideal) v)) = fun j => a j + v j := by
  unfold k0_pay16 k0_pay15 k0_pay13
  simp only [shapeCast_self, shapeCast_shapeCast]
  rfl

theorem pay17_pay14 (a v : S128x512.Idx → EReal) : k0_pay17 (F := Ideal) a (k0_pay14 (F := Ideal) v) = fun j => a j + v j := by
  unfold k0_pay17 k0_pay14
  simp only [shapeCast_self, shapeCast_shapeCast]
  rfl

theorem pay20_pay18 (v : S128x512.Idx → EReal) : k0_pay20 (F := Ideal) (k0_pay18 (F := Ideal) v) = v := by
  unfold k0_pay20 k0_pay18
  simp only [shapeCast_self, shapeCast_shapeCast]
  rfl

theorem pay21_pay19 (v : S128x512.Idx → EReal) : k0_pay21 (F := Ideal) (k0_pay19 (F := Ideal) v) = v := by
  unfold k0_pay21 k0_pay19
  simp only [shapeCast_self, shapeCast_shapeCast]
  rfl

theorem pay24_pay22 (v : S128x512.Idx → EReal) : k0_pay24 (F := Ideal) (k0_pay22 (F := Ideal) v) = v := by
  unfold k0_pay24 k0_pay22
  simp only [shapeCast_self, shapeCast_shapeCast]
  rfl

theorem pay25_pay23 (v : S128x512.Idx → EReal) : k0_pay25 (F := Ideal) (k0_pay23 (F := Ideal) v) = v := by
  unfold k0_pay25 k0_pay23
  simp only [shapeCast_self, shapeCast_shapeCast]
  rfl

theorem pay1_pay26 (v : S128x512.Idx → EReal) : k0_pay1 (F := Ideal) (k0_pay26 (F := Ideal) v) = v := by
  unfold k0_pay1 k0_pay26
  simp only [shapeCast_self, shapeCast_shapeCast]
  rfl

theorem pay2_pay27 (v : S128x512.Idx → EReal) : k0_pay2 (F := Ideal) (k0_pay27 (F := Ideal) v) = v := by
  unfold k0_pay2 k0_pay27
  simp only [shapeCast_self, shapeCast_shapeCast]
  rfl

end payloads

section model
variable (X : ℕ → ℕ → EReal)

def M0r (z k : ℕ) : EReal := if k = c3 z 0 then X z (c3 z 0) + X ((z + 3) % 4) (c1 ((z + 3) % 4) 0) else X z k
def M1 (z k : ℕ) : EReal := if k = c4 z 0 then M0r X z (c4 z 0) + X ((z + 1) % 4) (c2 ((z + 1) % 4) 0) else M0r X z k
def M1r (z k : ℕ) : EReal := if k = c3 z 1 then M1 X z (c3 z 1) + M1 X ((z + 3) % 4) (c1 ((z + 3) % 4) 1) else M1 X z k
def M2 (z k : ℕ) : EReal := if k = c4 z 1 then M1r X z (c4 z 1) + M1 X ((z + 1) % 4) (c2 ((z + 1) % 4) 1) else M1r X z k
def M2r (z k : ℕ) : EReal := if k = c3 z 2 then M2 X z (c3 z 2) + M2 X ((z + 3) % 4) (c1 ((z + 3) % 4) 2) else M2 X z k
def M3 (z k : ℕ) : EReal := if k = c4 z 2 then M2r X z (c4 z 2) + M2 X ((z + 1) % 4) (c2 ((z + 1) % 4) 2) else M2r X z k
def N0r (z k : ℕ) : EReal := if k = c1 z 0 then M3 X ((z + 3) % 4) (c5 ((z + 3) % 4) 0) else M3 X z k
def N1 (z k : ℕ) : EReal := if k = c2 z 0 then M3 X ((z + 1) % 4) (c6 ((z + 1) % 4) 0) else N0r X z k
def N1r (z k : ℕ) : EReal := if k = c1 z 1 then N1 X ((z + 3) % 4) (c5 ((z + 3) % 4) 1) else N1 X z k
def N2 (z k : ℕ) : EReal := if k = c2 z 1 then N1 X ((z + 1) % 4) (c6 ((z + 1) % 4) 1) else N1r X z k
def N2r (z k : ℕ) : EReal := if k = c1 z 2 then N2 X ((z + 3) % 4) (c5 ((z + 3) % 4) 2) else N2 X z k
def N3 (z k : ℕ) : EReal := if k = c2 z 2 then N2 X ((z + 1) % 4) (c6 ((z + 1) % 4) 2) else N2r X z k

/-- Three additions then three copies leave the ring's sum in every chunk: checked at each of the four positions and eight chunks. -/
theorem N3_sum (z k : ℕ) (hz : z < 4) (hk : k < 8) : N3 X z k = X 0 k + X 1 k + X 2 k + X 3 k := by
  interval_cases z <;> interval_cases k <;>
    simp [N3, N2r, N2, N1r, N1, N0r, M3, M2r, M2, M1r, M1, M0r, c1, c2, c3, c4, c5, c6] <;> ac_rfl

end model

def XB (B : Fin 4 → S1024x512.Idx → EReal) (j : S128x512.Idx) (z k : ℕ) : EReal :=
  B ⟨z % 4, Nat.mod_lt _ (by decide)⟩ (cix k j)

section stages
variable (m : (ℓ : Loc nD τ sig) → Buf (Elt Ideal) ℓ) (B : Fin 4 → S1024x512.Idx → EReal)
  (hB : ∀ c : Dev nD, xstg (F := Ideal) m c = B ⟨c.val % 4, Nat.mod_lt _ (by decide)⟩) (j : S128x512.Idx)

include hB

theorem A0_chk (c : Dev nD) (k : ℕ) : A0 (F := Ideal) m c (cix k j) = XB B j (c.val % 4) k := by
  unfold A0 XB
  rw [pay3_id, hB c]
  simp only [Nat.mod_mod]

theorem A0r_chk (c : Dev nD) (k : ℕ) (hk : k < 8) : A0r (F := Ideal) m c (cix k j) = M0r (XB B j) (c.val % 4) k := by
  unfold A0r rs0 M0r
  rw [wrA_chk _ _ _ (c3_lt _ _) (off3_0 c) _ _ k hk j, pay6_pay4]
  by_cases h : k = c3 (c.val % 4) 0
  · rw [if_pos h, if_pos h]
    beta_reduce
    rw [rdA_chk _ _ _ (c3_lt _ _) (off3_0 c), rdA_chk _ _ _ (c1_lt _ _) (off1_0 (lft c)),
        A0_chk m B hB j c, A0_chk m B hB j (lft c), lft_mod]
  · rw [if_neg h, if_neg h, A0_chk m B hB j c]

theorem A1_chk (c : Dev nD) (k : ℕ) (hk : k < 8) : A1 (F := Ideal) m c (cix k j) = M1 (XB B j) (c.val % 4) k := by
  unfold A1 ls0 M1
  rw [wrA_chk _ _ _ (c4_lt _ _) (off4_0 c) _ _ k hk j, pay8_pay7_pay5]
  by_cases h : k = c4 (c.val % 4) 0
  · rw [if_pos h, if_pos h]
    beta_reduce
    rw [rdA_chk _ _ _ (c4_lt _ _) (off4_0 c), rdA_chk _ _ _ (c2_lt _ _) (off2_0 (rgt c)),
        A0r_chk m B hB j c _ (c4_lt _ _), A0_chk m B hB j (rgt c), rgt_mod]
  · rw [if_neg h, if_neg h, A0r_chk m B hB j c k hk]

theorem A1r_chk (c : Dev nD) (k : ℕ) (hk : k < 8) : A1r (F := Ideal) m c (cix k j) = M1r (XB B j) (c.val % 4) k := by
  unfold A1r rs1 M1r
  rw [wrA_chk _ _ _ (c3_lt _ _) (off3_1 c) _ _ k hk j, pay11_pay9]
  by_cases h : k = c3 (c.val % 4) 1
  · rw [if_pos h, if_pos h]
    beta_reduce
    rw [rdA_chk _ _ _ (c3_lt _ _) (off3_1 c), rdA_chk _ _ _ (c1_lt _ _) (off1_1 (lft c)),
        A1_chk m B hB j c _ (c3_lt _ _), A1_chk m B hB j (lft c) _ (c1_lt _ _), lft_mod]
  · rw [if_neg h, if_neg h, A1_chk m B hB j c k hk]

theorem A2_chk (c : Dev nD) (k : ℕ) (hk : k < 8) : A2 (F := Ideal) m c (cix k j) = M2 (XB B j) (c.val % 4) k := by
  unfold A2 ls1 M2
  rw [wrA_chk _ _ _ (c4_lt _ _) (off4_1 c) _ _ k hk j, pay12_pay10]
  by_cases h : k = c4 (c.val % 4) 1
  · rw [if_pos h, if_pos h]
    beta_reduce
    rw [rdA_chk _ _ _ (c4_lt _ _) (off4_1 c), rdA_chk _ _ _ (c2_lt _ _) (off2_1 (rgt c)),
        A1r_chk m B hB j c _ (c4_lt _ _), A1_chk m B hB j (rgt c) _ (c2_lt _ _), rgt_mod]
  · rw [if_neg h, if_neg h, A1r_chk m B hB j c k hk]

theorem A2r_chk (c : Dev nD) (k : ℕ) (hk : k < 8) : A2r (F := Ideal) m c (cix k j) = M2r (XB B j) (c.val % 4) k := by
  unfold A2r rs2 M2r
  rw [wrA_chk _ _ _ (c3_lt _ _) (off3_2 c) _ _ k hk j, pay16_pay15_pay13]
  by_cases h : k = c3 (c.val % 4) 2
  · rw [if_pos h, if_pos h]
    beta_reduce
    rw [rdA_chk _ _ _ (c3_lt _ _) (off3_2 c), rdA_chk _ _ _ (c1_lt _ _) (off1_2 (lft c)),
        A2_chk m B hB j c _ (c3_lt _ _), A2_chk m B hB j (lft c) _ (c1_lt _ _), lft_mod]
  · rw [if_neg h, if_neg h, A2_chk m B hB j c k hk]

theorem A3_chk (c : Dev nD) (k : ℕ) (hk : k < 8) : A3 (F := Ideal) m c (cix k j) = M3 (XB B j) (c.val % 4) k := by
  unfold A3 ls2 M3
  rw [wrA_chk _ _ _ (c4_lt _ _) (off4_2 c) _ _ k hk j, pay17_pay14]
  by_cases h : k = c4 (c.val % 4) 2
  · rw [if_pos h, if_pos h]
    beta_reduce
    rw [rdA_chk _ _ _ (c4_lt _ _) (off4_2 c), rdA_chk _ _ _ (c2_lt _ _) (off2_2 (rgt c)),
        A2r_chk m B hB j c _ (c4_lt _ _), A2_chk m B hB j (rgt c) _ (c2_lt _ _), rgt_mod]
  · rw [if_neg h, if_neg h, A2r_chk m B hB j c k hk]

theorem O0_chk (c : Dev nD) (k : ℕ) (hk : k < 8) : O0 (F := Ideal) m c (cix k j) = M3 (XB B j) (c.val % 4) k :=
  A3_chk m B hB j c k hk

theorem O0r_chk (c : Dev nD) (k : ℕ) (hk : k < 8) : O0r (F := Ideal) m c (cix k j) = N0r (XB B j) (c.val % 4) k := by
  unfold O0r rs3 N0r
  rw [wrO_chk _ _ _ (c1_lt _ _) (off1_0 c) _ _ k hk j, pay20_pay18]
  by_cases h : k = c1 (c.val % 4) 0
  · rw [if_pos h, if_pos h, rdO_chk _ _ _ (c5_lt _ _) (off5_0 (lft c)),
        O0_chk m B hB j (lft c) _ (c5_lt _ _), lft_mod]
  · rw [if_neg h, if_neg h, O0_chk m B hB j c k hk]

theorem O1_chk (c : Dev nD) (k : ℕ) (hk : k < 8) : O1 (F := Ideal) m c (cix k j) = N1 (XB B j) (c.val % 4) k := by
  unfold O1 ls3 N1
  rw [wrO_chk _ _ _ (c2_lt _ _) (off2_0 c) _ _ k hk j, pay21_pay19]
  by_cases h : k = c2 (c.val % 4) 0
  · rw [if_pos h, if_pos h, rdO_chk _ _ _ (c6_lt _ _) (off6_0 (rgt c)),
        O0_chk m B hB j (rgt c) _ (c6_lt _ _), rgt_mod]
  · rw [if_neg h, if_neg h, O0r_chk m B hB j c k hk]

theorem O1r_chk (c : Dev nD) (k : ℕ) (hk : k < 8) : O1r (F := Ideal) m c (cix k j) = N1r (XB B j) (c.val % 4) k := by
  unfold O1r rs4 N1r
  rw [wrO_chk _ _ _ (c1_lt _ _) (off1_1 c) _ _ k hk j, pay24_pay22]
  by_cases h : k = c1 (c.val % 4) 1
  · rw [if_pos h, if_pos h, rdO_chk _ _ _ (c5_lt _ _) (off5_1 (lft c)),
        O1_chk m B hB j (lft c) _ (c5_lt _ _), lft_mod]
  · rw [if_neg h, if_neg h, O1_chk m B hB j c k hk]

theorem O2_chk (c : Dev nD) (k : ℕ) (hk : k < 8) : O2 (F := Ideal) m c (cix k j) = N2 (XB B j) (c.val % 4) k := by
  unfold O2 ls4 N2
  rw [wrO_chk _ _ _ (c2_lt _ _) (off2_1 c) _ _ k hk j, pay25_pay23]
  by_cases h : k = c2 (c.val % 4) 1
  · rw [if_pos h, if_pos h, rdO_chk _ _ _ (c6_lt _ _) (off6_1 (rgt c)),
        O1_chk m B hB j (rgt c) _ (c6_lt _ _), rgt_mod]
  · rw [if_neg h, if_neg h, O1r_chk m B hB j c k hk]

theorem O2r_chk (c : Dev nD) (k : ℕ) (hk : k < 8) : O2r (F := Ideal) m c (cix k j) = N2r (XB B j) (c.val % 4) k := by
  unfold O2r rs5 N2r
  rw [wrO_chk _ _ _ (c1_lt _ _) (off1_2 c) _ _ k hk j, pay1_pay26]
  by_cases h : k = c1 (c.val % 4) 2
  · rw [if_pos h, if_pos h, rdO_chk _ _ _ (c5_lt _ _) (off5_2 (lft c)),
        O2_chk m B hB j (lft c) _ (c5_lt _ _), lft_mod]
  · rw [if_neg h, if_neg h, O2_chk m B hB j c k hk]

theorem O3_chk (c : Dev nD) (k : ℕ) (hk : k < 8) : O3 (F := Ideal) m c (cix k j) = N3 (XB B j) (c.val % 4) k := by
  unfold O3 ls5 N3
  rw [wrO_chk _ _ _ (c2_lt _ _) (off2_2 c) _ _ k hk j, pay2_pay27]
  by_cases h : k = c2 (c.val % 4) 2
  · rw [if_pos h, if_pos h, rdO_chk _ _ _ (c6_lt _ _) (off6_2 (rgt c)),
        O2_chk m B hB j (rgt c) _ (c6_lt _ _), rgt_mod]
  · rw [if_neg h, if_neg h, O2r_chk m B hB j c k hk]

end stages

end Value

open Value

theorem O3_sum (m : (ℓ : Loc nD τ sig) → Buf (Elt Ideal) ℓ) (B : Fin 4 → S1024x512.Idx → EReal)
    (hB : ∀ c : Dev nD, xstg (F := Ideal) m c = B ⟨c.val % 4, Nat.mod_lt _ (by decide)⟩) (c : Dev nD) :
    O3 (F := Ideal) m c = fun i => B 0 i + B 1 i + B 2 i + B 3 i := by
  funext i
  have h0 : (i 0).val < 1024 := idx2_lt0 i
  have hk : (i 0).val / 128 < 8 := by omega
  have hi : i = cix ((i 0).val / 128) (ix2 ⟨(i 0).val % 128, Nat.mod_lt _ (by decide)⟩ (i 1)) := by
    funext a
    apply Fin.ext
    match a with
    | ⟨0, _⟩ => show (i 0).val = (128 * ((i 0).val / 128) + (i 0).val % 128) % 1024; omega
    | ⟨1, _⟩ => rfl
  have key : ∀ (k : ℕ) (hk : k < 8) (j : S128x512.Idx),
      O3 (F := Ideal) m c (cix k j) = B 0 (cix k j) + B 1 (cix k j) + B 2 (cix k j) + B 3 (cix k j) := by
    intro k hk j
    rw [O3_chk m B hB j c k hk, N3_sum _ _ _ (Nat.mod_lt _ (by decide)) hk]
    rfl
  have h := key _ hk (ix2 ⟨(i 0).val % 128, Nat.mod_lt _ (by decide)⟩ (i 1))
  rw [← hi] at h
  exact h

end Cert.KernelIdeal.AR

end
-- ==== Proof.Final.lean ====
/- The claims. Device c holds block c mod 4 of the reference's array; the kernel leaves the sum of the four blocks on every device, which is the
   reference's sum over the leading axis of the reshaped array. -/
import proofs.«900731_g7700000000000732_dist_ar_v7x_xyz2x4x4_z_m1024_n512_bf16_1_alg».proof.Proof.FrameRun
import proofs.«900731_g7700000000000732_dist_ar_v7x_xyz2x4x4_z_m1024_n512_bf16_1_alg».proof.Proof.Body
import proofs.«900731_g7700000000000732_dist_ar_v7x_xyz2x4x4_z_m1024_n512_bf16_1_alg».proof.Proof.Value
import proofs.«900731_g7700000000000732_dist_ar_v7x_xyz2x4x4_z_m1024_n512_bf16_1_alg».proof.Proof.Gen.ReferenceIdeal.Read
import proofs.«900731_g7700000000000732_dist_ar_v7x_xyz2x4x4_z_m1024_n512_bf16_1_alg».proof.Proof.Gen.Kernel
import proofs.«900731_g7700000000000732_dist_ar_v7x_xyz2x4x4_z_m1024_n512_bf16_1_alg».proof.Proof.Gen.Pre_finite_inputs_Kernel
import proofs.«900731_g7700000000000732_dist_ar_v7x_xyz2x4x4_z_m1024_n512_bf16_1_alg».proof.Proof.Gen.Pre_finite_inputs_ReferenceIdeal
import proofs.«900731_g7700000000000732_dist_ar_v7x_xyz2x4x4_z_m1024_n512_bf16_1_alg».proof.Defs
import Idealize.ShloMosaic.Lib.Layout
import Idealize.ShloMosaic.PureOps.Ideal.Laws

noncomputable section

namespace Cert.KernelIdeal.AR

open Cert.KernelIdeal Cert.KernelIdeal.Gen
open Idealize.ShloMosaic Idealize.ShloMosaic.TcCoe
open Idealize.SL.Sem
open Idealize.ShloMosaic.Pipeline (Dat Cfg Window BodyObligation cellOf)

abbrev RX : Type := Buf (Elt Ideal) (((0 : Dev Cert.ReferenceIdeal.nD).tc : Thread Cert.ReferenceIdeal.nD Cert.ReferenceIdeal.τ).loc Cert.ReferenceIdeal.main_arg0)

def rowIdx (z : Fin 4) (i : S1024x512.Idx) : Cert.ReferenceIdeal.S4096x512.Idx := fun a => match a with
  | ⟨0, _⟩ => ⟨z.val * 1024 + (i 0).val, by have h0 : (i 0).val < 1024 := (i 0).isLt; have hz := z.isLt; show z.val * 1024 + (i 0).val < 4096; omega⟩
  | ⟨1, _⟩ => ⟨(i 1).val, (i 1).isLt⟩

def Bk (X : RX) (z : Fin 4) : S1024x512.Idx → EReal := fun i => X (rowIdx z i)

theorem meshBlock0 (c : Dev nD) : ((Layout.meshBlock [2, 4, 4] ![[2], []] c) (0 : Fin 2)).val = c.val % 4 := by revert c; decide
theorem meshBlock1 (c : Dev nD) : ((Layout.meshBlock [2, 4, 4] ![[2], []] c) (1 : Fin 2)).val = 0 := rfl

/-- Device c's coordinate on the cut axis is c mod 4; the column axis is not cut. -/
theorem blk_eq (X : RX) (c : Dev nD) :
    Layout.blockN ⟨2, ![1024, 512]⟩ ⟨2, ![4096, 512]⟩ (Layout.meshBlock [2, 4, 4] ![[2], []] c) X = Bk X ⟨c.val % 4, Nat.mod_lt _ (by decide)⟩ := by
  funext i
  show X _ = X _
  refine congrArg X (funext fun a => Fin.ext ?_)
  rw [Layout.TilesN.idx_val]
  match a with
  | ⟨0, _⟩ =>
    show ((Layout.meshBlock [2, 4, 4] ![[2], []] c) (0 : Fin 2)).val * 1024 + (i 0).val = c.val % 4 * 1024 + (i 0).val
    rw [meshBlock0]
  | ⟨1, _⟩ =>
    show ((Layout.meshBlock [2, 4, 4] ![[2], []] c) (1 : Fin 2)).val * 512 + (i 1).val = (i 1).val
    rw [meshBlock1, Nat.zero_mul, Nat.zero_add]

theorem hB_of (m : (ℓ : Loc nD τ sig) → Buf (Elt Ideal) ℓ) (X : RX)
    (hagree : ∀ c : Dev nD, m ((c.tc : Thread nD τ).loc main_arg0)
      = Layout.blockN ⟨2, ![1024, 512]⟩ ⟨2, ![4096, 512]⟩ (Layout.meshBlock [2, 4, 4] ![[2], []] c) X) (c : Dev nD) :
    xstg (F := Ideal) m c = Bk X ⟨c.val % 4, Nat.mod_lt _ (by decide)⟩ :=
  (xstg_eq m c).trans ((hagree c).trans (blk_eq X c))

/-- Row r of block z is row z * 1024 + r of the whole array, and 0 + x = x. -/
theorem sum_eq_ref (X : RX) :
    (fun i => Bk X 0 i + Bk X 1 i + Bk X 2 i + Bk X 3 i) = Cert.ReferenceIdeal.Read.val_main_v1 (F := Ideal) X := by
  funext i
  rw [Cert.ReferenceIdeal.Read.val_main_v1_apply, Cert.ReferenceIdeal.Read.val_main_cst_apply, Fin.sum_univ_four]
  simp only [Cert.ReferenceIdeal.Read.val_main_v0_apply]
  have h0 : (i 0).val < 1024 := (i 0).isLt
  have h1 : (i 1).val < 512 := (i 1).isLt
  have hk : ∀ k : Fin 4, X (Cert.ReferenceIdeal.Read.idx_main_v0 (Cert.ReferenceIdeal.Read.idx_main_v1 i k)) = Bk X k i := fun k =>
    congrArg X (funext fun a => Fin.ext (by
      have hk4 := k.isLt
      match a with
      | ⟨0, _⟩ => show ((k.val * 1024 + (i 0).val) * 512 + (i 1).val) / 512 = k.val * 1024 + (i 0).val; omega
      | ⟨1, _⟩ => show ((k.val * 1024 + (i 0).val) * 512 + (i 1).val) % 512 = (i 1).val; omega))
  rw [hk 0, hk 1, hk 2, hk 3]
  show (_ : EReal) = (Ideal.ofBits .f32 0x00000000#32 : EReal) + _
  rw [Ideal.ofBits_zero_f32, zero_add]

theorem O3_eq_ref (m : (ℓ : Loc nD τ sig) → Buf (Elt Ideal) ℓ) (X : RX)
    (hagree : ∀ c : Dev nD, m ((c.tc : Thread nD τ).loc main_arg0)
      = Layout.blockN ⟨2, ![1024, 512]⟩ ⟨2, ![4096, 512]⟩ (Layout.meshBlock [2, 4, 4] ![[2], []] c) X) (c : Dev nD) :
    O3 (F := Ideal) m c = Cert.ReferenceIdeal.Read.val_main_v1 (F := Ideal) X :=
  (O3_sum m (Bk X) (hB_of m X hagree) c).trans (sum_eq_ref X)

theorem frame_KI : Cert.frame_KernelIdeal := fun m ρ _ =>
  (θ_run defs _ _).mono (fun _ h c => (h c).2) (run_frame (F := Ideal) m (body_obligation m) ρ)

/-- The word-level program has the same single body as the idealized one, term for term. -/
theorem defs₀_word {F : FTy → Type} [FloatOps F] : Cert.Kernel.defs₀ (F := F) = defs₀ (F := F) := by
  unfold Cert.Kernel.defs₀ Cert.KernelIdeal.defs₀
  refine congrArg Defs.onTc (funext fun ℓ => funext fun a => ?_)
  obtain rfl : ℓ = 0 := Subsingleton.elim (α := Fin 1) _ _
  obtain ⟨t, s⟩ := a
  rfl

theorem defs_word {F : FTy → Type} [FloatOps F] : Cert.Kernel.defs (F := F) = defs (F := F) :=
  congrArg (Pipeline.defs pcfgs) defs₀_word

/-- The run holds at every float instance; at bit patterns it is the word-level program's run. -/
theorem frame_K : Cert.frame_Kernel := fun m ρ _ => by
  rw [defs_word]
  exact (θ_run _ _ _).mono (fun _ h c => (h c).2) (run_frame (F := Bits) m (body_obligation m) ρ)

theorem frame_RI : Cert.frame_ReferenceIdeal := fun m ρ _ =>
  (θ_run Cert.ReferenceIdeal.defs _ _).mono (fun _ h c => (h c).2) (Cert.ReferenceIdeal.Value.run (F := Ideal) m ρ)

theorem preserves_K_KI : Cert.preserves_Kernel_KernelIdeal := trivial

theorem algebraic_KI_RI : Cert.algebraic_KernelIdeal_ReferenceIdeal := fun m ρ m' ρ' _ hagree =>
  ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)),
    (θ_run defs _ _).mono (fun _ h c => ⟨((h c).1).trans (O3_eq_ref m _ hagree c), (h c).2⟩)
      (run_frame (F := Ideal) m (body_obligation m) ρ),
    (θ_run Cert.ReferenceIdeal.defs _ _).mono (fun _ h => ⟨((h 0).1).trans (Cert.ReferenceIdeal.Read.val_main_v1_eq _), (h 0).2⟩)
      (Cert.ReferenceIdeal.Value.run (F := Ideal) m' ρ')⟩

end Cert.KernelIdeal.AR

end
-- ==== Proof.lean ====
/- A ring all-reduce over one mesh axis: every device ends with the sum of the four blocks of its ring, which is the reference's
   sum over the leading axis of the reshaped array; both programs terminate with their arguments unchanged. -/
import proofs.«900731_g7700000000000732_dist_ar_v7x_xyz2x4x4_z_m1024_n512_bf16_1_alg».proof.Defs
import proofs.«900731_g7700000000000732_dist_ar_v7x_xyz2x4x4_z_m1024_n512_bf16_1_alg».proof.Proof.Gen.Kernel
import proofs.«900731_g7700000000000732_dist_ar_v7x_xyz2x4x4_z_m1024_n512_bf16_1_alg».proof.Proof.Gen.KernelIdeal
import proofs.«900731_g7700000000000732_dist_ar_v7x_xyz2x4x4_z_m1024_n512_bf16_1_alg».proof.Proof.Gen.ReferenceIdeal
import proofs.«900731_g7700000000000732_dist_ar_v7x_xyz2x4x4_z_m1024_n512_bf16_1_alg».proof.Proof.Gen.Pre_finite_inputs_Kernel
import proofs.«900731_g7700000000000732_dist_ar_v7x_xyz2x4x4_z_m1024_n512_bf16_1_alg».proof.Proof.Gen.Pre_finite_inputs_ReferenceIdeal
import proofs.«900731_g7700000000000732_dist_ar_v7x_xyz2x4x4_z_m1024_n512_bf16_1_alg».proof.Proof.Final

noncomputable section

namespace Cert.Proof

open Cert.KernelIdeal.AR

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_K, frame_KI, frame_RI, preserves_K_KI, algebraic_KI_RI⟩

end Cert.Proof

end
